-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S32 .f32) (main_arg9 : FVec F S128x32 .f32) (main_arg10 : FVec F S32 .f32) (main_arg11 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S128 .f32) (main_arg6 : FVec F S128 .f32) (main_arg7 : FVec F S128x32 .f32) (main_arg8 : FVec F S32 .f32) (main_arg9 : FVec F S128x32 .f32) (main_arg10 : FVec F S32 .f32) (main_arg11 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128x32 .f32) (main_arg8 : FVec F S32 .f32) (main_arg9 : FVec F S128x32 .f32) (main_arg10 : FVec F S32 .f32) (main_arg11 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 56
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S128x32, .f32⟩
  | .hbm, ⟨10, _⟩ => ⟨S32, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x32, .f32⟩
  | .hbm, ⟨50, _⟩ => ⟨S100000x32, .f32⟩
  | .hbm, ⟨51, _⟩ => ⟨S1x32, .f32⟩
  | .hbm, ⟨52, _⟩ => ⟨S1x32, .f32⟩
  | .hbm, ⟨53, _⟩ => ⟨S1x32, .f32⟩
  | .hbm, ⟨54, _⟩ => ⟨S1x32, .f32⟩
  | .hbm, ⟨55, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x32, .f32⟩
  | .local _ .vmem, ⟨26, _⟩ => ⟨S1x32, .f32⟩
  | .local _ .vmem, ⟨27, _⟩ => ⟨S128x32, .f32⟩
  | .local _ .vmem, ⟨28, _⟩ => ⟨S5000x32, .f32⟩
  | .local _ .vmem, ⟨29, _⟩ => ⟨S5000x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_23 : BitVec 32 := 0#32
  let v34 : BitVec 1 := Scalar.cmpi .ne v33 c0_i32_23
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S128x32_S128x32_0_0 : ∀ a, (![0, 0] : Fin 2 → Nat) a + S128x32.size a ≤ S128x32.size a
  h_S128x32 : 0 < S128x32.numel
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  shapeCasts_S5000x32_S5000x32 : S5000x32.ShapeCasts S5000x32
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x32.size a ≤ S128x32.size a
  hwx2_4 : ∀ i : grid2.Coords, EltTy.bits .f32 = 32 ∨ (Rect.block (s := S128x32) S128x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30_0) S5000x32.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v30_1) S1x32.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30_2) S1x32.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v30_0) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30_1) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30_2) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x32 : Shape := ⟨2, ![100000, 32]⟩
abbrev S1x32 : Shape := ⟨2, ![1, 32]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S128x32, .f32⟩
  | .hbm, ⟨10, _⟩ => ⟨S32, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x32, .f32⟩
  | .hbm, ⟨82, _⟩ => ⟨S1x32, .f32⟩
  | .hbm, ⟨83, _⟩ => ⟨S100000x32, .f32⟩
  | .hbm, ⟨84, _⟩ => ⟨S100000x32, .f32⟩
  | .hbm, ⟨85, _⟩ => ⟨S100000x32, .f32⟩
  | .hbm, ⟨86, _⟩ => ⟨S100000x32, .f32⟩
  | .hbm, ⟨87, _⟩ => ⟨S_, .f32⟩
  | .hbm, ⟨88, _⟩ => ⟨S32, .f32⟩
  | .hbm, ⟨89, _⟩ => ⟨S_, .f32⟩
  | .hbm, ⟨90, _⟩ => ⟨S32, .f32⟩
  | .hbm, ⟨91, _⟩ => ⟨S32, .f32⟩
  | .hbm, ⟨92, _⟩ => ⟨S1x32, .f32⟩
  | .hbm, ⟨93, _⟩ => ⟨S100000x32, .f32⟩
  | .hbm, ⟨94, _⟩ => ⟨S100000x32, .f32⟩
  | .hbm, ⟨95, _⟩ => ⟨S100000x32, .f32⟩
  | .hbm, ⟨96, _⟩ => ⟨S_, .f32⟩
  | .hbm, ⟨97, _⟩ => ⟨S32, .f32⟩
  | .hbm, ⟨98, _⟩ => ⟨S_, .f32⟩
  | .hbm, ⟨99, _⟩ => ⟨S32, .f32⟩
  | .hbm, ⟨100, _⟩ => ⟨S32, .f32⟩
  | .hbm, ⟨101, _⟩ => ⟨S1x32, .f32⟩
  | .hbm, ⟨102, _⟩ => ⟨S100000x32, .f32⟩
  | .hbm, ⟨103, _⟩ => ⟨S100000x32, .f32⟩
  | .hbm, ⟨104, _⟩ => ⟨S_, .f32⟩
  | .hbm, ⟨105, _⟩ => ⟨S32, .f32⟩
  | .hbm, ⟨106, _⟩ => ⟨S32, .f32⟩
  | .hbm, ⟨107, _⟩ => ⟨S32, .f32⟩
  | .hbm, ⟨108, _⟩ => ⟨S1x32, .f32⟩
  | .hbm, ⟨109, _⟩ => ⟨S100000x32, .f32⟩
  | .hbm, ⟨110, _⟩ => ⟨S100000x32, .f32⟩
  | .hbm, ⟨111, _⟩ => ⟨S1x32, .f32⟩
  | .hbm, ⟨112, _⟩ => ⟨S100000x32, .f32⟩
  | .hbm, ⟨113, _⟩ => ⟨S100000x32, .f32⟩
  | .hbm, ⟨114, _⟩ => ⟨S1x32, .f32⟩
  | .hbm, ⟨115, _⟩ => ⟨S100000x32, .f32⟩
  | .hbm, ⟨116, _⟩ => ⟨S100000x32, .f32⟩
  | .hbm, ⟨117, _⟩ => ⟨S_, .f32⟩
  | .hbm, ⟨118, _⟩ => ⟨S100000x32, .f32⟩
  | .hbm, ⟨119, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_call1_cst : Ref sig .tc := ⟨.hbm, 117, rfl⟩
abbrev main_call1_v0 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S_S100000x32 : S_.BroadcastsInDim S100000x32 (![] : Fin 0 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KI.Gc0.lean ====
import proofs.«154965_j36919538876772_1_alg».proof.Proof.Gen.KernelIdeal.Launch
import proofs.«154965_j36919538876772_1_alg».proof.Proof.Gen.KernelIdeal.Skeleton
import proofs.«154965_j36919538876772_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)

abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

section
variable (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)

set_option maxHeartbeats 1000000 in

noncomputable def kernelRun0_A (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__graphconv_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__graphconv_kernel_eq_skeleton]; unfold cc0__graphconv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

set_option maxHeartbeats 1000000 in

noncomputable def kernelRun0_B (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__graphconv_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__graphconv_kernel_eq_skeleton]; unfold cc0__graphconv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

set_option maxHeartbeats 1000000 in

noncomputable def kernelRun0_C (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__graphconv_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__graphconv_kernel_eq_skeleton]; unfold cc0__graphconv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

theorem cover0_A_5 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

def out0_A_5 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

def out0_A_6 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) : Vec F S1x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3 x4).2.1)

def out0_A_7 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3 x4).2.2.1)

theorem scover0_A_0 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

def sout0_A_0 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

theorem scover0_A_1 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

def sout0_A_1 (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

theorem cover0_B_5 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

def out0_B_5 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

def out0_B_6 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)

def out0_B_7 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover0_B_0 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

def sout0_B_0 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover0_B_1 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

def sout0_B_1 (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

theorem cover0_C_5 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

def out0_C_5 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

theorem cover0_C_6 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

def out0_C_6 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

theorem cover0_C_7 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

def out0_C_7 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover0_C_0 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

def sout0_C_0 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover0_C_1 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

def sout0_C_1 (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

end

universe u

-- `f` applied to the arguments the body is run with at grid point `t`.
abbrev atPt0 {α : grid0.Coords → Sort u} (t : Fin cfg0.N)
    (f : (i : grid0.Coords) → (arg1 : Memref sig .tc .vmem S5000x128 .f32) → arg1.IsWhole → (arg2 : Memref sig .tc .vmem S5000x128 .f32) → arg2.IsWhole → (arg3 : Memref sig .tc .vmem S128x128 .f32) → arg3.IsWhole → (arg4 : Memref sig .tc .vmem S1x128 .f32) → arg4.IsWhole → (arg5 : Memref sig .tc .vmem S128x128 .f32) → arg5.IsWhole → (arg6 : Memref sig .tc .vmem S5000x128 .f32) → arg6.IsWhole → (arg7 : Memref sig .tc .vmem S1x128 .f32) → arg7.IsWhole → (arg8 : Memref sig .tc .vmem S1x128 .f32) → arg8.IsWhole → (arg9 : Memref sig .tc .vmem S1x128 .f32) → arg9.IsWhole → (arg10 : Memref sig .tc .vmem S1x128 .f32) → arg10.IsWhole → α i) : α (grid0.coords t) :=
  f (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)

def outsAt0 (c : Dev nD) : (n : ℕ) → n < cfg0.N → (Vec F S5000x128 .f32 × Vec F S1x128 .f32 × Vec F S1x128 .f32) × (Vec F S1x128 .f32 × Vec F S1x128 .f32)
  | 0, hn => ((atPt0 ⟨0, hn⟩ (out0_A_5 c) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), atPt0 ⟨0, hn⟩ (out0_A_6 c) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), atPt0 ⟨0, hn⟩ (out0_A_7 c) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)), (atPt0 ⟨0, hn⟩ (sout0_A_0 c) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), atPt0 ⟨0, hn⟩ (sout0_A_1 c) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)))
  | n + 1, hn =>
    if h0 : (n + 1) % 20 = 0 then
      if h1 : (n + 1) % 20 = 19 then
        False.elim (by have hN : n + 1 < 20 := lt_of_lt_of_eq hn (show cfg0.N = 20 from N_0); omega)
      else
        ((atPt0 ⟨n + 1, hn⟩ (out0_A_5 c) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), atPt0 ⟨n + 1, hn⟩ (out0_A_6 c) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), atPt0 ⟨n + 1, hn⟩ (out0_A_7 c) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)), (atPt0 ⟨n + 1, hn⟩ (sout0_A_0 c) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), atPt0 ⟨n + 1, hn⟩ (sout0_A_1 c) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)))
    else
      if h1 : (n + 1) % 20 = 19 then
        ((atPt0 ⟨n + 1, hn⟩ (out0_C_5 c) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, atPt0 ⟨n + 1, hn⟩ (out0_C_6 c) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, atPt0 ⟨n + 1, hn⟩ (out0_C_7 c) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2), (atPt0 ⟨n + 1, hn⟩ (sout0_C_0 c) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, atPt0 ⟨n + 1, hn⟩ (sout0_C_1 c) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2))
      else
        ((atPt0 ⟨n + 1, hn⟩ (out0_B_5 c) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, atPt0 ⟨n + 1, hn⟩ (out0_B_6 c) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, atPt0 ⟨n + 1, hn⟩ (out0_B_7 c) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2), (atPt0 ⟨n + 1, hn⟩ (sout0_B_0 c) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2, atPt0 ⟨n + 1, hn⟩ (sout0_B_1 c) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2))

theorem outsAt0_A (c : Dev nD) (t : Fin cfg0.N) (h0 : t.val % 20 = 0) (h1 : ¬t.val % 20 = 19) :
    outsAt0 V c t.val t.isLt = ((atPt0 t (out0_A_5 c) ((hcond0_0 t).mpr h0) (fun h => h1 ((hcond0_1 t).mp h)) (iblk0 V c 0 t) (iblk0 V c 1 t) (iblk0 V c 2 t) (iblk0 V c 3 t) (iblk0 V c 4 t), atPt0 t (out0_A_6 c) ((hcond0_0 t).mpr h0) (fun h => h1 ((hcond0_1 t).mp h)) (iblk0 V c 0 t) (iblk0 V c 1 t) (iblk0 V c 2 t) (iblk0 V c 3 t) (iblk0 V c 4 t), atPt0 t (out0_A_7 c) ((hcond0_0 t).mpr h0) (fun h => h1 ((hcond0_1 t).mp h)) (iblk0 V c 0 t) (iblk0 V c 1 t) (iblk0 V c 2 t) (iblk0 V c 3 t) (iblk0 V c 4 t)), (atPt0 t (sout0_A_0 c) ((hcond0_0 t).mpr h0) (fun h => h1 ((hcond0_1 t).mp h)) (iblk0 V c 0 t) (iblk0 V c 1 t) (iblk0 V c 2 t) (iblk0 V c 3 t) (iblk0 V c 4 t), atPt0 t (sout0_A_1 c) ((hcond0_0 t).mpr h0) (fun h => h1 ((hcond0_1 t).mp h)) (iblk0 V c 0 t) (iblk0 V c 1 t) (iblk0 V c 2 t) (iblk0 V c 3 t) (iblk0 V c 4 t))) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = ((atPt0 t (out0_B_5 c) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, atPt0 t (out0_B_6 c) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, atPt0 t (out0_B_7 c) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2), (atPt0 t (sout0_B_0 c) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, atPt0 t (sout0_B_1 c) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = ((atPt0 t (out0_C_5 c) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, atPt0 t (out0_C_6 c) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, atPt0 t (out0_C_7 c) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2), (atPt0 t (sout0_C_0 c) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2, atPt0 t (sout0_C_1 c) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2)
          ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2)
          ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2)
          ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1.1
    | ⟨6, _⟩ => (outsAt0 V c t.val t.isLt).1.2.1
    | ⟨7, _⟩ => (outsAt0 V c t.val t.isLt).1.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1.1 := by dsimp only [dat0]
theorem after0_6 (c : Dev nD) (t : Fin cfg0.N) : (dat0 V c).after 6 t = (outsAt0 V c t.val t.isLt).1.2.1 := by dsimp only [dat0]
theorem after0_7 (c : Dev nD) (t : Fin cfg0.N) : (dat0 V c).after 7 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 20 = 0
  · by_cases h1 : t.val % 20 = 19
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold atPt0 out0_A_5 sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _)
        isplitl [H6]; · iexists _; iexact H6
        iexists _; iexact H7
      · exfalso; omega
  · by_cases h1 : t.val % 20 = 19
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold atPt0 out0_C_5 out0_C_6 out0_C_7 sout0_C_0 sout0_C_1; (try dsimp only)
      by_cases hz : t.val = 0
      · exfalso; omega
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold atPt0 out0_B_5 sout0_B_0 sout0_B_1; (try dsimp only)
      by_cases hz : t.val = 0
      · exfalso; omega
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _)
        isplitl [H6]; · iexists _; iexact H6
        iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 20 := N_0; omega)

end Cert.KernelIdeal.Hand

end
-- ==== Proof.KI.Bn1.lean ====
import proofs.«154965_j36919538876772_1_alg».proof.Proof.Gen.KernelIdeal.Launch
import proofs.«154965_j36919538876772_1_alg».proof.Proof.Gen.KernelIdeal.Skeleton
import proofs.«154965_j36919538876772_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0

abbrev r1_1 : Rect S1x128 := Rect.unit (s := S1x128) ![0, 0] S1x128.size inb_S1x128_S1x128_0_0

def out1_5 (x0 : Vec F S5000x128 .f32) (x1 x2 x3 x4 : Vec F S1x128 .f32) : Vec F S5000x128 .f32 :=
  View.canon [⟨r1_0, k1_pay1 (View.ld x3 r1_1) (View.ld x4 r1_1) (View.ld x0 r1_0) (View.ld x1 r1_1) (View.ld x2 r1_1)⟩]

theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in

theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Gc2.lean ====
import proofs.«154965_j36919538876772_1_alg».proof.Proof.Gen.KernelIdeal.Launch
import proofs.«154965_j36919538876772_1_alg».proof.Proof.Gen.KernelIdeal.Skeleton
import proofs.«154965_j36919538876772_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem liveAt2_3 : ∀ t : Fin cfg2.N, cfg2.idle 3 (grid2.coords t) = false := by decide +kernel

theorem liveAt2_4 : ∀ t : Fin cfg2.N, cfg2.idle 4 (grid2.coords t) = false := by decide +kernel

theorem liveAt2_5 : ∀ t : Fin cfg2.N, cfg2.idle 5 (grid2.coords t) = false := by decide +kernel

theorem idleAt2_6_A : ∀ t : Fin cfg2.N, cond2_0 (grid2.coords t) → ¬cond2_1 (grid2.coords t) → cfg2.idle 6 (grid2.coords t) = true := by decide +kernel

theorem noFlush2_6_A : ∀ t : Fin cfg2.N, cond2_0 (grid2.coords t) → ¬cond2_1 (grid2.coords t) → (cfg2.win 6).flush t = false := by decide +kernel

theorem idleAt2_7_A : ∀ t : Fin cfg2.N, cond2_0 (grid2.coords t) → ¬cond2_1 (grid2.coords t) → cfg2.idle 7 (grid2.coords t) = true := by decide +kernel

theorem noFlush2_7_A : ∀ t : Fin cfg2.N, cond2_0 (grid2.coords t) → ¬cond2_1 (grid2.coords t) → (cfg2.win 7).flush t = false := by decide +kernel

theorem idleAt2_6_B : ∀ t : Fin cfg2.N, ¬cond2_0 (grid2.coords t) → ¬cond2_1 (grid2.coords t) → cfg2.idle 6 (grid2.coords t) = true := by decide +kernel

theorem noFlush2_6_B : ∀ t : Fin cfg2.N, ¬cond2_0 (grid2.coords t) → ¬cond2_1 (grid2.coords t) → (cfg2.win 6).flush t = false := by decide +kernel

theorem idleAt2_7_B : ∀ t : Fin cfg2.N, ¬cond2_0 (grid2.coords t) → ¬cond2_1 (grid2.coords t) → cfg2.idle 7 (grid2.coords t) = true := by decide +kernel

theorem noFlush2_7_B : ∀ t : Fin cfg2.N, ¬cond2_0 (grid2.coords t) → ¬cond2_1 (grid2.coords t) → (cfg2.win 7).flush t = false := by decide +kernel

theorem liveAt2_6_C : ∀ t : Fin cfg2.N, ¬cond2_0 (grid2.coords t) → cond2_1 (grid2.coords t) → cfg2.idle 6 (grid2.coords t) = false := by decide +kernel

theorem liveAt2_7_C : ∀ t : Fin cfg2.N, ¬cond2_0 (grid2.coords t) → cond2_1 (grid2.coords t) → cfg2.idle 7 (grid2.coords t) = false := by decide +kernel

abbrev VO2_5 : View sig .tc .vmem S5000x32 .f32 := (Memref.whole cc2_stg5_0 : Memref sig .tc .vmem S5000x32 .f32).view
abbrev VO2_6 : View sig .tc .vmem S1x32 .f32 := (Memref.whole cc2_stg6_0 : Memref sig .tc .vmem S1x32 .f32).view
abbrev VO2_7 : View sig .tc .vmem S1x32 .f32 := (Memref.whole cc2_stg7_0 : Memref sig .tc .vmem S1x32 .f32).view

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)

abbrev scM2_0 : Memref sig .tc .vmem S1x32 .f32 := Memref.whole cc2_scratch0
abbrev scM2_1 : Memref sig .tc .vmem S1x32 .f32 := Memref.whole cc2_scratch1

abbrev VS2_0 : View sig .tc .vmem S1x32 .f32 := scM2_0.view
abbrev VS2_1 : View sig .tc .vmem S1x32 .f32 := scM2_1.view

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

section
variable (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S128x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole)

set_option maxHeartbeats 4000000 in

noncomputable def kernelRun2_A (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) :
    Σ' (L5 : List (View.Piece (Elt F) S5000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (xi6 : Vec F S1x32 .f32) (xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__graphconv_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__graphconv_kernel_eq_skeleton]; unfold cc2__graphconv_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

theorem cover2_A_5 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) (y : S5000x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S5000x32.size (by sl_kernel_rfl) y

def out2_A_5 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) : Vec F S5000x32 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)

def out2_A_6 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) : Vec F S1x32 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 hc0 hc1 x0 x1 x2 x3 x4).2.1)

def out2_A_7 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) : Vec F S1x32 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4).2.2.1)

theorem scover2_A_0 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) (y : S1x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.1 S1x32.size (by sl_kernel_rfl) y

def sout2_A_0 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) : Vec F S1x32 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.2.2.1)

theorem scover2_A_1 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) (y : S1x32.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.2.1 S1x32.size (by sl_kernel_rfl) y

def sout2_A_1 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) : Vec F S1x32 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.2.2.1)

set_option maxHeartbeats 4000000 in

noncomputable def kernelRun2_B (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    Σ' (L5 : List (View.Piece (Elt F) S5000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (xi6 : Vec F S1x32 .f32) (xi7 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__graphconv_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__graphconv_kernel_eq_skeleton]; unfold cc2__graphconv_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

theorem cover2_B_5 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S5000x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S5000x32.size (by sl_kernel_rfl) y

def out2_B_5 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S5000x32 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)

def out2_B_6 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)

def out2_B_7 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover2_B_0 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x32.size (by sl_kernel_rfl) y

def sout2_B_0 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover2_B_1 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S1x32.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x32.size (by sl_kernel_rfl) y

def sout2_B_1 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

set_option maxHeartbeats 4000000 in

noncomputable def kernelRun2_C (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    Σ' (L5 : List (View.Piece (Elt F) S5000x32 .f32)) (L6 : List (View.Piece (Elt F) S1x32 .f32)) (L7 : List (View.Piece (Elt F) S1x32 .f32)) (LS0 : List (View.Piece (Elt F) S1x32 .f32)), { LS1 : List (View.Piece (Elt F) S1x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__graphconv_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__graphconv_kernel_eq_skeleton]; unfold cc2__graphconv_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

theorem cover2_C_5 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S5000x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S5000x32.size (by sl_kernel_rfl) y

def out2_C_5 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S5000x32 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)

theorem cover2_C_6 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x32.size (by sl_kernel_rfl) y

def out2_C_6 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)

theorem cover2_C_7 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x32.size (by sl_kernel_rfl) y

def out2_C_7 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)

theorem scover2_C_0 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x32.size (by sl_kernel_rfl) y

def sout2_C_0 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

theorem scover2_C_1 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) (y : S1x32.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x32.size (by sl_kernel_rfl) y

def sout2_C_1 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) : Vec F S1x32 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

end

section Regions

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

universe u

-- `f` applied to the arguments the body is run with at grid point `t`.
abbrev atPt2 {α : grid2.Coords → Sort u} (t : Fin cfg2.N)
    (f : (i : grid2.Coords) → (arg1 : Memref sig .tc .vmem S5000x128 .f32) → arg1.IsWhole → (arg2 : Memref sig .tc .vmem S5000x128 .f32) → arg2.IsWhole → (arg3 : Memref sig .tc .vmem S128x32 .f32) → arg3.IsWhole → (arg4 : Memref sig .tc .vmem S1x32 .f32) → arg4.IsWhole → (arg5 : Memref sig .tc .vmem S128x32 .f32) → arg5.IsWhole → (arg6 : Memref sig .tc .vmem S5000x32 .f32) → arg6.IsWhole → (arg7 : Memref sig .tc .vmem S1x32 .f32) → arg7.IsWhole → (arg8 : Memref sig .tc .vmem S1x32 .f32) → arg8.IsWhole → (arg9 : Memref sig .tc .vmem S1x32 .f32) → arg9.IsWhole → (arg10 : Memref sig .tc .vmem S1x32 .f32) → arg10.IsWhole → α i) : α (grid2.coords t) :=
  f (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)

def outsAt2 (c : Dev nD) : (n : ℕ) → n < cfg2.N → (Vec F S5000x32 .f32 × Vec F S1x32 .f32 × Vec F S1x32 .f32) × (Vec F S1x32 .f32 × Vec F S1x32 .f32)
  | 0, hn => ((atPt2 ⟨0, hn⟩ (out2_A_5 c) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), atPt2 ⟨0, hn⟩ (out2_A_6 c) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), atPt2 ⟨0, hn⟩ (out2_A_7 c) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩)), (atPt2 ⟨0, hn⟩ (sout2_A_0 c) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), atPt2 ⟨0, hn⟩ (sout2_A_1 c) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩)))
  | n + 1, hn =>
    if h0 : (n + 1) % 20 = 0 then
      if h1 : (n + 1) % 20 = 19 then
        False.elim (by have hN : n + 1 < 20 := lt_of_lt_of_eq hn (show cfg2.N = 20 from N_2); omega)
      else
        ((atPt2 ⟨n + 1, hn⟩ (out2_A_5 c) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), atPt2 ⟨n + 1, hn⟩ (out2_A_6 c) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), atPt2 ⟨n + 1, hn⟩ (out2_A_7 c) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)), (atPt2 ⟨n + 1, hn⟩ (sout2_A_0 c) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), atPt2 ⟨n + 1, hn⟩ (sout2_A_1 c) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)))
    else
      if h1 : (n + 1) % 20 = 19 then
        ((atPt2 ⟨n + 1, hn⟩ (out2_C_5 c) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, atPt2 ⟨n + 1, hn⟩ (out2_C_6 c) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, atPt2 ⟨n + 1, hn⟩ (out2_C_7 c) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2), (atPt2 ⟨n + 1, hn⟩ (sout2_C_0 c) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, atPt2 ⟨n + 1, hn⟩ (sout2_C_1 c) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2))
      else
        ((atPt2 ⟨n + 1, hn⟩ (out2_B_5 c) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, atPt2 ⟨n + 1, hn⟩ (out2_B_6 c) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, atPt2 ⟨n + 1, hn⟩ (out2_B_7 c) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2), (atPt2 ⟨n + 1, hn⟩ (sout2_B_0 c) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2, atPt2 ⟨n + 1, hn⟩ (sout2_B_1 c) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2))

theorem outsAt2_A (c : Dev nD) (t : Fin cfg2.N) (h0 : t.val % 20 = 0) (h1 : ¬t.val % 20 = 19) :
    outsAt2 V c t.val t.isLt = ((atPt2 t (out2_A_5 c) ((hcond2_0 t).mpr h0) (fun h => h1 ((hcond2_1 t).mp h)) (iblk2 V c 0 t) (iblk2 V c 1 t) (iblk2 V c 2 t) (iblk2 V c 3 t) (iblk2 V c 4 t), atPt2 t (out2_A_6 c) ((hcond2_0 t).mpr h0) (fun h => h1 ((hcond2_1 t).mp h)) (iblk2 V c 0 t) (iblk2 V c 1 t) (iblk2 V c 2 t) (iblk2 V c 3 t) (iblk2 V c 4 t), atPt2 t (out2_A_7 c) ((hcond2_0 t).mpr h0) (fun h => h1 ((hcond2_1 t).mp h)) (iblk2 V c 0 t) (iblk2 V c 1 t) (iblk2 V c 2 t) (iblk2 V c 3 t) (iblk2 V c 4 t)), (atPt2 t (sout2_A_0 c) ((hcond2_0 t).mpr h0) (fun h => h1 ((hcond2_1 t).mp h)) (iblk2 V c 0 t) (iblk2 V c 1 t) (iblk2 V c 2 t) (iblk2 V c 3 t) (iblk2 V c 4 t), atPt2 t (sout2_A_1 c) ((hcond2_0 t).mpr h0) (fun h => h1 ((hcond2_1 t).mp h)) (iblk2 V c 0 t) (iblk2 V c 1 t) (iblk2 V c 2 t) (iblk2 V c 3 t) (iblk2 V c 4 t))) := by
  obtain ⟨n, hn⟩ := t
  cases n with
  | zero => exact rfl
  | succ n => exact (dif_pos h0).trans ((dif_neg h1).trans rfl)

theorem outsAt2_B (c : Dev nD) (t : Fin cfg2.N) (h0 : ¬t.val % 20 = 0) (h1 : ¬t.val % 20 = 19) :
    outsAt2 V c t.val t.isLt = ((atPt2 t (out2_B_5 c) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, atPt2 t (out2_B_6 c) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, atPt2 t (out2_B_7 c) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2), (atPt2 t (sout2_B_0 c) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, atPt2 t (sout2_B_1 c) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 20 = 0) (h1 : t.val % 20 = 19) :
    outsAt2 V c t.val t.isLt = ((atPt2 t (out2_C_5 c) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, atPt2 t (out2_C_6 c) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, atPt2 t (out2_C_7 c) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2), (atPt2 t (sout2_C_0 c) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2, atPt2 t (sout2_C_1 c) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ Pipeline.scopedRestBut spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ Pipeline.scopedRestBut spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ Pipeline.scopedRestBut spec2 c [cc2_scratch0, cc2_scratch1]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1.1
    | ⟨6, _⟩ => (outsAt2 V c t.val t.isLt).1.2.1
    | ⟨7, _⟩ => (outsAt2 V c t.val t.isLt).1.2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1.1 := by dsimp only [dat2]
theorem after2_6 (c : Dev nD) (t : Fin cfg2.N) : (dat2 V c).after 6 t = (outsAt2 V c t.val t.isLt).1.2.1 := by dsimp only [dat2]
theorem after2_7 (c : Dev nD) (t : Fin cfg2.N) : (dat2 V c).after 7 t = (outsAt2 V c t.val t.isLt).1.2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 20 = 0
  · by_cases h1 : t.val % 20 = 19
    · exfalso; omega
    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [show (dat2 V c).leavesExact 4 t = owns (c : Thread nD τ) (ms2_4 t) fullShare ((dat2 V c).after 4 t) from by
              unfold Dat.leavesExact; rw [liveAt2_4 t], after2_4]
      rw [show (dat2 V c).leavesExact 5 t = owns (c : Thread nD τ) (ms2_5 t) fullShare ((dat2 V c).after 5 t) from by
              unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold atPt2 out2_A_5 sout2_A_0 sout2_A_1; (try dsimp only)
      by_cases hz : t.val = 0
      · rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover2_A_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_A_5 c _ _ _ _ _ _ _ _ _ _ _ _ _ _ _ _ _ _ _ _ _ _ _ _ _ _ _ _)
        isplitl [H6]; · iexists _; iexact H6
        iexists _; iexact H7
      · exfalso; omega
  · by_cases h1 : t.val % 20 = 19
    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [show (dat2 V c).leavesExact 4 t = owns (c : Thread nD τ) (ms2_4 t) fullShare ((dat2 V c).after 4 t) from by
              unfold Dat.leavesExact; rw [liveAt2_4 t], after2_4]
      rw [show (dat2 V c).leavesExact 5 t = owns (c : Thread nD τ) (ms2_5 t) fullShare ((dat2 V c).after 5 t) from by
              unfold Dat.leavesExact; rw [liveAt2_5 t], after2_5]
      rw [show (dat2 V c).leavesExact 6 t = owns (c : Thread nD τ) (ms2_6 t) fullShare ((dat2 V c).after 6 t) from by
              unfold Dat.leavesExact; rw [liveAt2_6_C t (fun h => h0 ((hcond2_0 t).mp h)) ((hcond2_1 t).mpr h1)], after2_6]
      rw [show (dat2 V c).leavesExact 7 t = owns (c : Thread nD τ) (ms2_7 t) fullShare ((dat2 V c).after 7 t) from by
              unfold Dat.leavesExact; rw [liveAt2_7_C t (fun h => h0 ((hcond2_0 t).mp h)) ((hcond2_1 t).mpr h1)], after2_7]
      rw [outsAt2_C V c t h0 h1]
      unfold atPt2 out2_C_5 out2_C_6 out2_C_7 sout2_C_0 sout2_C_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover2_C_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover2_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
              unfold Dat.leavesExact; rw [liveAt2_0 t], after2_0]
      rw [show (dat2 V c).leavesExact 1 t = owns (c : Thread nD τ) (ms2_1 t) fullShare ((dat2 V c).after 1 t) from by
              unfold Dat.leavesExact; rw [liveAt2_1 t], after2_1]
      rw [show (dat2 V c).leavesExact 2 t = owns (c : Thread nD τ) (ms2_2 t) fullShare ((dat2 V c).after 2 t) from by
              unfold Dat.leavesExact; rw [liveAt2_2 t], after2_2]
      rw [show (dat2 V c).leavesExact 3 t = owns (c : Thread nD τ) (ms2_3 t) fullShare ((dat2 V c).after 3 t) from by
              unfold Dat.leavesExact; rw [liveAt2_3 t], after2_3]
      rw [show (dat2 V c).leavesExact 4 t = owns (c : Thread nD τ) (ms2_4 t) fullShare ((dat2 V c).after 4 t) from by
              unfold Dat.leavesExact; rw [liveAt2_4 t], after2_4]
      rw [show (dat2 V c).leavesExact 5 t = owns (c : Thread nD τ) (ms2_5 t) fullShare ((dat2 V c).after 5 t) from by
              unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold atPt2 out2_B_5 sout2_B_0 sout2_B_1; (try dsimp only)
      by_cases hz : t.val = 0
      · exfalso; omega
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover2_B_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_B_5 c _ _ _ _ _ _ _ _ _ _ _ _ _ _ _ _ _ _ _ _ _ _ _ _ _ _ _ _ _ _)
        isplitl [H6]; · iexists _; iexact H6
        iexists _; iexact H7

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 20 := N_2; omega)

end Regions

end Cert.KernelIdeal.Hand

end
-- ==== Proof.KI.Bn3.lean ====
import proofs.«154965_j36919538876772_1_alg».proof.Proof.Gen.KernelIdeal.Launch
import proofs.«154965_j36919538876772_1_alg».proof.Proof.Gen.KernelIdeal.Skeleton
import proofs.«154965_j36919538876772_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S5000x32 := Rect.unit (s := S5000x32) ![0, 0] S5000x32.size inb_S5000x32_S5000x32_0_0

abbrev r3_1 : Rect S1x32 := Rect.unit (s := S1x32) ![0, 0] S1x32.size inb_S1x32_S1x32_0_0

def out3_5 (x0 : Vec F S5000x32 .f32) (x1 x2 x3 x4 : Vec F S1x32 .f32) : Vec F S5000x32 .f32 :=
  View.canon [⟨r3_0, k3_pay1 (View.ld x3 r3_1) (View.ld x4 r3_1) (View.ld x0 r3_0) (View.ld x1 r3_1) (View.ld x2 r3_1)⟩]

theorem cover3_5 (p0 : Vec F S5000x32 .f32) (y : S5000x32.Idx) :
    ∃ pc ∈ ([⟨r3_0, p0⟩] : List (View.Piece (Elt F) S5000x32 .f32)), y ∈ pc.1.set :=
  View.cover_of_tiled [⟨r3_0, p0⟩] S5000x32.size (by rfl) y

set_option maxHeartbeats 1000000 in

theorem sound_kernel3 (c : Dev nD) (E : Set ℕ) (i : grid3.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Run.lean ====
import proofs.«154965_j36919538876772_1_alg».proof.Proof.Gen.KernelIdeal.Launch
import proofs.«154965_j36919538876772_1_alg».proof.Proof.Gen.KernelIdeal.Skeleton
import proofs.«154965_j36919538876772_1_alg».proof.Proof.Gen.KernelIdeal.Points
import proofs.«154965_j36919538876772_1_alg».proof.Proof.Gen.KernelIdeal.Regions
import proofs.«154965_j36919538876772_1_alg».proof.Proof.KI.Gc0
import proofs.«154965_j36919538876772_1_alg».proof.Proof.KI.Bn1
import proofs.«154965_j36919538876772_1_alg».proof.Proof.KI.Gc2
import proofs.«154965_j36919538876772_1_alg».proof.Proof.KI.Bn3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

-- A host stretch changes only the buffers it writes.
theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h
theorem W5_of (c : Dev nD) (b : Ref sig .tc) (h : b ∉ hostOps2_W) : W5 m ρ c (Proc.devRef .tc b) = W4 m ρ c (Proc.devRef .tc b) :=
  StableHlo.after_of_writes_sub hostOps2 _ hostOps2_writes h
theorem W7_of (c : Dev nD) (b : Ref sig .tc) (h : b ∉ hostOps3_W) : W7 m ρ c (Proc.devRef .tc b) = W6 m ρ c (Proc.devRef .tc b) :=
  StableHlo.after_of_writes_sub hostOps3 _ hostOps3_writes h

-- A region changes only its output windows' arrays.
theorem W2_of (c : Dev nD) (b : Ref sig .tc) (h : ∀ w, (cfg0.win w).isOut = true → Pipeline.arrRef spec0 w ≠ b) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (Bool.eq_false_iff.mpr fun e => h w e rfl) _).trans (A_eq0 (V1 m ρ) c w))
  · exact W2_of_ne m ρ c b fun w e => hb ⟨w, e⟩
theorem W4_of (c : Dev nD) (b : Ref sig .tc) (h : ∀ w, (cfg1.win w).isOut = true → Pipeline.arrRef spec1 w ≠ b) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (Bool.eq_false_iff.mpr fun e => h w e rfl) _).trans (A_eq1 (V3 m ρ) c w))
  · exact W4_of_ne m ρ c b fun w e => hb ⟨w, e⟩
theorem W6_of (c : Dev nD) (b : Ref sig .tc) (h : ∀ w, (cfg2.win w).isOut = true → Pipeline.arrRef spec2 w ≠ b) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (Bool.eq_false_iff.mpr fun e => h w e rfl) _).trans (A_eq2 (V5 m ρ) c w))
  · exact W6_of_ne m ρ c b fun w e => hb ⟨w, e⟩
theorem W8_of (c : Dev nD) (b : Ref sig .tc) (h : ∀ w, (cfg3.win w).isOut = true → Pipeline.arrRef spec3 w ≠ b) :
    W8 m ρ c (Proc.devRef .tc b) = W7 m ρ c (Proc.devRef .tc b) := by
  by_cases hb : ∃ w, Pipeline.arrRef spec3 w = b
  · obtain ⟨w, rfl⟩ := hb
    exact (W8_arr m ρ c w).trans (((dat3 (V7 m ρ) c).arrAt_in w (Bool.eq_false_iff.mpr fun e => h w e rfl) _).trans (A_eq3 (V7 m ρ) c w))
  · exact W8_of_ne m ρ c b fun w e => hb ⟨w, e⟩

abbrev Kept (b : Ref sig .tc) : Prop :=
  b ∉ hostOps0_W ∧ (∀ w, (cfg0.win w).isOut = true → Pipeline.arrRef spec0 w ≠ b) ∧
  b ∉ hostOps1_W ∧ (∀ w, (cfg1.win w).isOut = true → Pipeline.arrRef spec1 w ≠ b) ∧
  b ∉ hostOps2_W ∧ (∀ w, (cfg2.win w).isOut = true → Pipeline.arrRef spec2 w ≠ b) ∧
  b ∉ hostOps3_W ∧ (∀ w, (cfg3.win w).isOut = true → Pipeline.arrRef spec3 w ≠ b)

-- So a buffer no item writes is as launched at every one of the eight boundaries.
theorem keep (c : Dev nD) (b : Ref sig .tc) (h : Kept b) :
    W1 m ρ c (Proc.devRef .tc b) = m ((c : Thread nD τ).loc b) ∧
    W2 m ρ c (Proc.devRef .tc b) = m ((c : Thread nD τ).loc b) ∧
    W3 m ρ c (Proc.devRef .tc b) = m ((c : Thread nD τ).loc b) ∧
    W4 m ρ c (Proc.devRef .tc b) = m ((c : Thread nD τ).loc b) ∧
    W5 m ρ c (Proc.devRef .tc b) = m ((c : Thread nD τ).loc b) ∧
    W6 m ρ c (Proc.devRef .tc b) = m ((c : Thread nD τ).loc b) ∧
    W7 m ρ c (Proc.devRef .tc b) = m ((c : Thread nD τ).loc b) ∧
    W8 m ρ c (Proc.devRef .tc b) = m ((c : Thread nD τ).loc b) := by
  obtain ⟨h0, h1, h2, h3, h4, h5, h6, h7⟩ := h
  have e1 : W1 m ρ c (Proc.devRef .tc b) = m ((c : Thread nD τ).loc b) := W1_of m ρ c b h0
  have e2 := (W2_of m ρ c b h1).trans e1
  have e3 := (W3_of m ρ c b h2).trans e2
  have e4 := (W4_of m ρ c b h3).trans e3
  have e5 := (W5_of m ρ c b h4).trans e4
  have e6 := (W6_of m ρ c b h5).trans e5
  have e7 := (W7_of m ρ c b h6).trans e6
  exact ⟨e1, e2, e3, e4, e5, e6, e7, (W8_of m ρ c b h7).trans e7⟩

theorem W8_arg (c : Dev nD) (b : Ref sig .tc) (h : Kept b) : W8 m ρ c (Proc.devRef .tc b) = m ((c : Thread nD τ).loc b) := (keep m ρ c b h).2.2.2.2.2.2.2

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

theorem run_result : θ_run defs (onTc (τ := τ) (main (F := F))) ⟨m, fun _ => 0, ρ⟩ (fun r => ∀ c : Dev nD,
      r.2.mem ((c.tc : Thread nD τ).loc main_v33) = W8 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v33 (by decide)),
     (h c _ (mem_uc main_arg0 (by decide))).trans (W8_arg m ρ c main_arg0 (by decide)),
     (h c _ (mem_uc main_arg1 (by decide))).trans (W8_arg m ρ c main_arg1 (by decide)),
     (h c _ (mem_uc main_arg2 (by decide))).trans (W8_arg m ρ c main_arg2 (by decide)),
     (h c _ (mem_uc main_arg3 (by decide))).trans (W8_arg m ρ c main_arg3 (by decide)),
     (h c _ (mem_uc main_arg4 (by decide))).trans (W8_arg m ρ c main_arg4 (by decide)),
     (h c _ (mem_uc main_arg5 (by decide))).trans (W8_arg m ρ c main_arg5 (by decide)),
     (h c _ (mem_uc main_arg6 (by decide))).trans (W8_arg m ρ c main_arg6 (by decide)),
     (h c _ (mem_uc main_arg7 (by decide))).trans (W8_arg m ρ c main_arg7 (by decide)),
     (h c _ (mem_uc main_arg8 (by decide))).trans (W8_arg m ρ c main_arg8 (by decide)),
     (h c _ (mem_uc main_arg9 (by decide))).trans (W8_arg m ρ c main_arg9 (by decide)),
     (h c _ (mem_uc main_arg10 (by decide))).trans (W8_arg m ρ c main_arg10 (by decide)),
     (h c _ (mem_uc main_arg11 (by decide))).trans (W8_arg m ρ c main_arg11 (by decide))⟩) (run_all m ρ)

-- The frame is the run's result with the result array forgotten.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)) :=
  (θ_run defs _ _).mono (fun _ h c => (h c).2) (run_result m ρ)

end Cert.KernelIdeal.Hand

end
-- ==== Proof.Spec.Layer.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

def IsReal (x : EReal) : Prop := ∃ r : ℝ, x = (r : EReal)

abbrev Mat (N D : ℕ) : Type := (⟨2, ![N, D]⟩ : Shape).Idx → EReal

def nRows : EReal := Ideal.ofBits .f32 0x47C35000#32

def eps : EReal := Ideal.ofBits .f32 0x3727C5AC#32

def zeroLit : EReal := Ideal.ofBits .f32 0x00000000#32

def dense {N K D : ℕ} (agg x : Mat N K) (wr wo : Mat K D) (b : Fin D → EReal) : Mat N D :=
  fun i => ((∑ k : Fin K, agg (ix2 (i 0) k) * wr (ix2 k (i 1))) + b (i 1)) + ∑ k : Fin K, x (ix2 (i 0) k) * wo (ix2 k (i 1))

def colSum {N D : ℕ} (p : Mat N D) (j : Fin D) : EReal := ∑ r : Fin N, p (ix2 r j)

def colSumSq {N D : ℕ} (p : Mat N D) (j : Fin D) : EReal := ∑ r : Fin N, p (ix2 r j) * p (ix2 r j)

def bnSums {N D : ℕ} (p : Mat N D) (s ss γ β : Fin D → EReal) : Mat N D := fun i =>
  max (((p i - Ideal.div (s (i 1)) nRows)
        * Ideal.rsqrt ((Ideal.div (ss (i 1)) nRows - Ideal.div (s (i 1)) nRows * Ideal.div (s (i 1)) nRows) + eps))
        * γ (i 1) + β (i 1)) zeroLit

def bnDev {N D : ℕ} (p : Mat N D) (γ β : Fin D → EReal) : Mat N D := fun i =>
  max (((p i - Ideal.div (colSum p (i 1)) nRows)
        * Ideal.rsqrt (Ideal.div (∑ r : Fin N, (p (ix2 r (i 1)) - Ideal.div (colSum p (i 1)) nRows)
                                              * (p (ix2 r (i 1)) - Ideal.div (colSum p (i 1)) nRows)) nRows + eps))
        * γ (i 1) + β (i 1)) zeroLit

theorem isReal_coe (r : ℝ) : IsReal (r : EReal) := ⟨r, rfl⟩
theorem isReal_zero : IsReal 0 := ⟨0, by simp⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy
  rcases le_total a b with h | h
  · rw [max_eq_right (EReal.coe_le_coe_iff.2 h)]; exact ⟨b, rfl⟩
  · rw [max_eq_left (EReal.coe_le_coe_iff.2 h)]; exact ⟨a, rfl⟩
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih (fun i hi => h i (Finset.mem_insert_of_mem hi)))

private theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

theorem nRows_eq : nRows = ((100000 : ℝ) : EReal) := by
  simp [nRows, Ideal.ofBits, Ideal.ieee, -EReal.coe_mul]; norm_num
theorem eps_pos : ∃ e : ℝ, 0 < e ∧ eps = (e : EReal) := by
  have h : eps = ((10995116 * (2 : ℝ) ^ (-40 : Int) : ℝ) : EReal) := by
    simp [eps, Ideal.ofBits, Ideal.ieee, -EReal.coe_mul]
  exact ⟨_, by positivity, h⟩
theorem zeroLit_eq : zeroLit = 0 := Ideal.ofBits_zero_f32

theorem IsReal.div_nRows {x : EReal} (hx : IsReal x) : IsReal (Ideal.div x nRows) := by
  rw [nRows_eq, Ideal.div_coe (by norm_num)]; exact hx.mul (isReal_coe _)

theorem isReal_rsqrt_of_pos {r : ℝ} (hr : 0 < r) : IsReal (Ideal.rsqrt (r : EReal)) := by
  rw [Ideal.rsqrt_coe, if_neg (not_lt.2 hr.le), if_neg hr.ne']; exact isReal_coe _

theorem isReal_dense {N K D : ℕ} {agg x : Mat N K} {wr wo : Mat K D} {b : Fin D → EReal}
    (hagg : ∀ i, IsReal (agg i)) (hx : ∀ i, IsReal (x i)) (hwr : ∀ i, IsReal (wr i)) (hwo : ∀ i, IsReal (wo i))
    (hb : ∀ j, IsReal (b j)) (i) : IsReal (dense agg x wr wo b i) :=
  ((IsReal.sum _ _ (fun _ _ => (hagg _).mul (hwr _))).add (hb _)).add (IsReal.sum _ _ (fun _ _ => (hx _).mul (hwo _)))

theorem isReal_bnDev {N D : ℕ} {p : Mat N D} {γ β : Fin D → EReal} (hp : ∀ i, IsReal (p i)) (hγ : ∀ j, IsReal (γ j))
    (hβ : ∀ j, IsReal (β j)) (i) : IsReal (bnDev p γ β i) := by
  have hm : IsReal (Ideal.div (colSum p (i 1)) nRows) := (IsReal.sum _ _ (fun _ _ => hp _)).div_nRows

  have hd : ∀ r : Fin N, IsReal (p (ix2 r (i 1)) - Ideal.div (colSum p (i 1)) nRows) := fun r => (hp _).sub hm
  choose d hd' using hd
  obtain ⟨e, he, hε⟩ := eps_pos
  have hn : (100000 : ℝ) ≠ 0 := by norm_num
  have hv : Ideal.div (∑ r : Fin N, (p (ix2 r (i 1)) - Ideal.div (colSum p (i 1)) nRows)
        * (p (ix2 r (i 1)) - Ideal.div (colSum p (i 1)) nRows)) nRows + eps
      = (((∑ r : Fin N, d r * d r) * (1 / 100000) + e : ℝ) : EReal) := by
    simp only [hd']
    simp only [hε, nRows_eq, Ideal.div_coe hn, ← EReal.coe_mul, ← EReal.coe_add, coe_sum]

  have hpos : 0 < (∑ r : Fin N, d r * d r) * (1 / 100000) + e := by
    have : 0 ≤ ∑ r : Fin N, d r * d r := Finset.sum_nonneg (fun r _ => mul_self_nonneg (d r))
    positivity
  unfold bnDev
  rw [hv, zeroLit_eq]
  exact (((((hp i).sub hm).mul (isReal_rsqrt_of_pos hpos)).mul (hγ _)).add (hβ _)).max isReal_zero

theorem variance_law {N : ℕ} (hN : N = 100000) (f : Fin N → EReal) (hf : ∀ r, IsReal (f r)) :
    Ideal.div (∑ r, f r * f r) nRows - Ideal.div (∑ r, f r) nRows * Ideal.div (∑ r, f r) nRows
      = Ideal.div (∑ r, (f r - Ideal.div (∑ r, f r) nRows) * (f r - Ideal.div (∑ r, f r) nRows)) nRows := by
  subst hN
  choose g hg using hf
  obtain rfl : f = fun r => ((g r : ℝ) : EReal) := funext hg
  have hn : (100000 : ℝ) ≠ 0 := by norm_num

  simp only [nRows_eq, Ideal.div_coe hn, ← EReal.coe_mul, ← EReal.coe_sub, coe_sum]
  congr 1

  have hdev : ∀ m : ℝ, (∑ r : Fin 100000, (g r - m) * (g r - m))
      = (∑ r, g r * g r) - 2 * m * (∑ r, g r) + 100000 * (m * m) := by
    intro m
    have h : ∀ r, (g r - m) * (g r - m) = g r * g r - 2 * m * g r + m * m := fun r => by ring
    simp only [h, Finset.sum_add_distrib, Finset.sum_sub_distrib, ← Finset.mul_sum, Finset.sum_const,
      Finset.card_univ, Fintype.card_fin, nsmul_eq_mul]
    push_cast; ring
  rw [hdev]
  field_simp
  ring

theorem bnSums_eq_bnDev {N D : ℕ} (hN : N = 100000) (p : Mat N D) (hp : ∀ i, IsReal (p i)) (γ β : Fin D → EReal) :
    bnSums p (colSum p) (colSumSq p) γ β = bnDev p γ β := by
  funext i
  have h := variance_law hN (fun r => p (ix2 r (i 1))) (fun r => hp _)
  simp only [bnSums, bnDev, colSum, colSumSq] at h ⊢
  rw [h]

theorem sum_tiles {M : Type*} [AddCommMonoid M] (f : Fin 100000 → M) :
    ∑ r, f r = ∑ t : Fin 20, ∑ q : Fin 5000, f ⟨5000 * t.val + q.val, by omega⟩ := by

  rw [← Equiv.sum_comp (finProdFinEquiv : Fin 20 × Fin 5000 ≃ Fin (20 * 5000)) f, Fintype.sum_prod_type]
  refine Finset.sum_congr rfl (fun t _ => Finset.sum_congr rfl (fun q _ => ?_))
  congr 1
  apply Fin.ext
  simp [finProdFinEquiv, Nat.add_comm]

theorem acc_eq_sum {M : Type*} [AddCommMonoid M] (T a : ℕ → M) (h0 : a 0 = 0 + T 0) (hs : ∀ n, a (n + 1) = a n + T (n + 1)) (n : ℕ) :
    a n = ∑ t ∈ Finset.range (n + 1), T t := by
  induction n with
  | zero => simp [h0]
  | succ n ih => rw [Finset.sum_range_succ _ (n + 1), hs, ih]

end Cert.Spec

end
-- ==== Proof.KI.GcVal0a.lean ====
import proofs.«154965_j36919538876772_1_alg».proof.Proof.Gen.KernelIdeal.Skeleton
import proofs.«154965_j36919538876772_1_alg».proof.Proof.Spec.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec Idealize.ShloMosaic Idealize.ShloMosaic.TcCoe Idealize.ShloMosaic.ValueIdx
open scoped BigOperators

theorem dot0_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem dot0_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot0_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot0_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul0_apply (a : FVec Ideal S5000x128 .f32) (w : FVec Ideal S128x128 .f32) (q : Fin 5000) (j : Fin 128) :
    matmul dot_S5000x128_S128x128_S5000x128_1_0_0_1_n_n none a w (constant S5000x128 .f32 0x00000000#32) (ix2 q j)
      = ∑ k : Fin 128, a (ix2 q k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 q j) ((contrEquiv1 dot_S5000x128_S128x128_S5000x128_1_0_0_1_n_n 128 rfl rfl).symm k) = ix2 q k := funext fun ax => Fin.ext (by
    match ax with
    | ⟨0, _⟩ => exact dot0_lhs_0 _ _
    | ⟨1, _⟩ => exact (dot0_lhs_1 _ _).trans hk)
  have er : dot_S5000x128_S128x128_S5000x128_1_0_0_1_n_n.rhsIdx (ix2 q j) ((contrEquiv1 dot_S5000x128_S128x128_S5000x128_1_0_0_1_n_n 128 rfl rfl).symm k) = ix2 k j := funext fun ax => Fin.ext (by
    match ax with
    | ⟨0, _⟩ => exact (dot0_rhs_0 _ _).trans hk
    | ⟨1, _⟩ => exact dot0_rhs_1 _ _)
  rw [el, er]

theorem pay4_apply (a : Vec Ideal S5000x128 .f32) (wr : Vec Ideal S128x128 .f32) (b : Vec Ideal S1x128 .f32)
    (x : Vec Ideal S5000x128 .f32) (wo : Vec Ideal S128x128 .f32) (q : Fin 5000) (j : Fin 128) :
    k0_pay4 (F := Ideal) a wr b x wo (ix2 q j)
      = ((∑ k : Fin 128, a (ix2 q k) * wr (ix2 k j)) + b (ix2 0 j)) + ∑ k : Fin 128, x (ix2 q k) * wo (ix2 k j) := by
  unfold k0_pay4
  simp only [shapeCast_self]
  show (matmul (F := Ideal) dot_S5000x128_S128x128_S5000x128_1_0_0_1_n_n none a wr (constant S5000x128 .f32 0x00000000#32) (ix2 q j)
      + broadcastTo S5000x128 b broadcasts_S1x128_S5000x128 (ix2 q j))
      + matmul (F := Ideal) dot_S5000x128_S128x128_S5000x128_1_0_0_1_n_n none x wo (constant S5000x128 .f32 0x00000000#32) (ix2 q j) = _
  rw [matmul0_apply, matmul0_apply, broadcastTo_1b_ab_apply]

theorem colsum0_apply (v : FVec Ideal S5000x128 .f32) (j : Fin 128) :
    shapeCast S1x128 (multiReduction .add [0] S128 v 0x00000000#32 reduces_S5000x128_S128 (.inl rfl) rfl) shapeCasts_S128_S1x128 (ix2 0 j)
      = ∑ q : Fin 5000, v (ix2 q j) := by
  rw [shapeCast_a_1a_apply]
  refine (Ideal.multiReduction_add_single v 0x00000000#32 reduces_S5000x128_S128 (.inl rfl) rfl (ix1 j)).trans ?_
  show ∑ q : Fin 5000, v (reduces_S5000x128_S128.lift (ix1 j) q) = _
  refine Finset.sum_congr rfl fun q _ => congrArg v ?_
  funext ax
  match ax with
  | ⟨0, _⟩ => rfl
  | ⟨1, _⟩ => rfl

theorem pay5_apply (a : Vec Ideal S5000x128 .f32) (wr : Vec Ideal S128x128 .f32) (b : Vec Ideal S1x128 .f32)
    (x : Vec Ideal S5000x128 .f32) (wo : Vec Ideal S128x128 .f32) (s : Vec Ideal S1x128 .f32) (j : Fin 128) :
    k0_pay5 (F := Ideal) a wr b x wo s (ix2 0 j) = s (ix2 0 j) + ∑ q : Fin 5000, k0_pay4 (F := Ideal) a wr b x wo (ix2 q j) := by
  unfold k0_pay5
  simp only [shapeCast_self]
  exact congrArg (s (ix2 0 j) + ·) (colsum0_apply _ j)

theorem pay6_apply (a : Vec Ideal S5000x128 .f32) (wr : Vec Ideal S128x128 .f32) (b : Vec Ideal S1x128 .f32)
    (x : Vec Ideal S5000x128 .f32) (wo : Vec Ideal S128x128 .f32) (s : Vec Ideal S1x128 .f32) (j : Fin 128) :
    k0_pay1 (F := Ideal) (k0_pay6 (F := Ideal) a wr b x wo s) (ix2 0 j)
      = s (ix2 0 j) + ∑ q : Fin 5000, k0_pay4 (F := Ideal) a wr b x wo (ix2 q j) * k0_pay4 (F := Ideal) a wr b x wo (ix2 q j) := by
  unfold k0_pay1 k0_pay6
  simp only [shapeCast_self]
  exact congrArg (s (ix2 0 j) + ·) (colsum0_apply _ j)

theorem pay2_apply (j : Fin 128) : k0_pay2 (F := Ideal) (ix2 0 j) = 0 := by
  unfold k0_pay2
  simp only [shapeCast_self]
  exact Ideal.ofBits_zero_f32
theorem pay3_apply (j : Fin 128) : k0_pay3 (F := Ideal) (ix2 0 j) = 0 := by
  unfold k0_pay3
  simp only [shapeCast_self]
  exact Ideal.ofBits_zero_f32

end Cert.KernelIdeal.Hand

end
-- ==== Proof.KI.GcPieces0.lean ====
import proofs.«154965_j36919538876772_1_alg».proof.Proof.KI.Gc0
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe
open Idealize.ShloMosaic.Tactic

variable {F : FTy → Type} [FloatOps F]

theorem hz0 : (![0, 0] : Fin 2 → Nat) = fun _ => 0 := funext fun a => by fin_cases a <;> rfl

section
variable (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)

theorem out0_A_5_eq (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay4 x0 x2 x3 x1 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S5000x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem sout0_A_0_eq (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay5 x0 x2 x3 x1 x4 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem sout0_A_1_eq (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay1 (k0_pay6 x0 x2 x3 x1 x4 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem out0_B_5_eq (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay4 x0 x2 x3 x1 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_cons_unit_zero (S := S5000x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem sout0_B_0_eq (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x2 x3 x1 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem sout0_B_1_eq (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x2 x3 x1 x4 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem out0_C_5_eq (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay4 x0 x2 x3 x1 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S5000x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem sout0_C_0_eq (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x2 x3 x1 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem sout0_C_1_eq (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x2 x3 x1 x4 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem out0_C_6_eq (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay5 x0 x2 x3 x1 x4 xs0 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

theorem out0_C_7_eq (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (xs0 : Vec F S1x128 .f32) (xs1 : Vec F S1x128 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay1 (k0_pay6 x0 x2 x3 x1 x4 xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_cons_unit_zero (S := S1x128) hz0]
  simp only [View.readAt_eq_ld, harg1.read_unread, harg2.read_unread, harg3.read_unread, harg4.read_unread, harg5.read_unread, harg9.read_unread, harg10.read_unread,
    View.ld_unit_zero (S := S5000x128) hz0, View.ld_unit_zero (S := S128x128) hz0, View.ld_unit_zero (S := S1x128) hz0,
    View.readCov_unit_zero (S := S1x128) _ hz0]

end

end Cert.KernelIdeal.Hand

end
-- ==== Proof.KI.GcVal0.lean ====
import proofs.«154965_j36919538876772_1_alg».proof.Proof.KI.Gc0
import proofs.«154965_j36919538876772_1_alg».proof.Proof.KI.GcVal0a
import proofs.«154965_j36919538876772_1_alg».proof.Proof.KI.GcPieces0
import proofs.«154965_j36919538876772_1_alg».proof.Proof.Spec.Layer
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen Cert.Spec Idealize.ShloMosaic Idealize.ShloMosaic.TcCoe Idealize.ShloMosaic.ValueIdx
open Idealize.ShloMosaic.Tactic
open Idealize.ShloMosaic.Pipeline (Dat)
open scoped BigOperators

variable (V : (c : Dev nD) → (b : Ref sig .tc) → Buf (Elt Ideal) ((c : Thread nD τ).loc b))

abbrev hpre0 (c : Dev nD) : Mat 100000 128 :=
  dense (V c main_v13) (V c main_arg0) (V c main_arg2) (V c main_arg4) (fun j => V c main_v14 (ix2 0 j))

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = t.val ∧ win0_5.index t 1 = 0 :=
  (by decide +kernel : ∀ t : Fin grid0.N, win0_5.index t 0 = t.val ∧ win0_5.index t 1 = 0)
theorem idx0_6 : ∀ t : Fin cfg0.N, win0_6.index t 0 = 0 ∧ win0_6.index t 1 = 0 :=
  (by decide +kernel : ∀ t : Fin grid0.N, win0_6.index t 0 = 0 ∧ win0_6.index t 1 = 0)
theorem idx0_7 : ∀ t : Fin cfg0.N, win0_7.index t 0 = 0 ∧ win0_7.index t 1 = 0 :=
  (by decide +kernel : ∀ t : Fin grid0.N, win0_7.index t 0 = 0 ∧ win0_7.index t 1 = 0)

theorem arr0_names : Pipeline.arrRef spec0 0 = main_v13 ∧ Pipeline.arrRef spec0 1 = main_arg0 ∧ Pipeline.arrRef spec0 2 = main_arg2
    ∧ Pipeline.arrRef spec0 3 = main_v14 ∧ Pipeline.arrRef spec0 4 = main_arg4 ∧ Pipeline.arrRef spec0 5 = main_v15_0
    ∧ Pipeline.arrRef spec0 6 = main_v15_1 ∧ Pipeline.arrRef spec0 7 = main_v15_2 := ⟨rfl, rfl, rfl, rfl, rfl, rfl, rfl, rfl⟩

abbrev rowAt (t : Fin cfg0.N) (q : Fin 5000) : Fin 100000 :=
  ⟨5000 * t.val + q.val, by have hN : cfg0.N = 20 := N_0; have := t.isLt; have := q.isLt; omega⟩

theorem iblk0_0_apply (c : Dev nD) (t : Fin cfg0.N) (q : Fin 5000) (k : Fin 128) :
    (iblk0 V c 0 t : Vec Ideal S5000x128 .f32) (ix2 q k) = (V c main_v13 : S100000x128.Idx → EReal) (ix2 (rowAt t q) k) := by
  unfold iblk0
  rw [View.read_apply]
  show V c main_v13 _ = _
  congr 1
  funext a
  apply Fin.ext
  match a with
  | ⟨0, _⟩ => show win0_0.index t 0 * 5000 + 1 * q.val = 5000 * t.val + q.val; rw [(idx0_0 t).1]; omega
  | ⟨1, _⟩ => show win0_0.index t 1 * 128 + 1 * k.val = k.val; rw [(idx0_0 t).2]; omega

theorem iblk0_1_apply (c : Dev nD) (t : Fin cfg0.N) (q : Fin 5000) (k : Fin 128) :
    (iblk0 V c 1 t : Vec Ideal S5000x128 .f32) (ix2 q k) = (V c main_arg0 : S100000x128.Idx → EReal) (ix2 (rowAt t q) k) := by
  unfold iblk0
  rw [View.read_apply]
  show V c main_arg0 _ = _
  congr 1
  funext a
  apply Fin.ext
  match a with
  | ⟨0, _⟩ => show win0_1.index t 0 * 5000 + 1 * q.val = 5000 * t.val + q.val; rw [(idx0_1 t).1]; omega
  | ⟨1, _⟩ => show win0_1.index t 1 * 128 + 1 * k.val = k.val; rw [(idx0_1 t).2]; omega

theorem iblk0_2_apply (c : Dev nD) (t : Fin cfg0.N) (k : Fin 128) (j : Fin 128) :
    (iblk0 V c 2 t : Vec Ideal S128x128 .f32) (ix2 k j) = (V c main_arg2 : S128x128.Idx → EReal) (ix2 k j) := by
  unfold iblk0
  rw [View.read_apply]
  show V c main_arg2 _ = _
  congr 1
  funext a
  apply Fin.ext
  match a with
  | ⟨0, _⟩ => show win0_2.index t 0 * 128 + 1 * k.val = k.val; rw [(idx0_2 t).1]; omega
  | ⟨1, _⟩ => show win0_2.index t 1 * 128 + 1 * j.val = j.val; rw [(idx0_2 t).2]; omega
theorem iblk0_3_apply (c : Dev nD) (t : Fin cfg0.N) (j : Fin 128) :
    (iblk0 V c 3 t : Vec Ideal S1x128 .f32) (ix2 0 j) = (V c main_v14 : S1x128.Idx → EReal) (ix2 0 j) := by
  unfold iblk0
  rw [View.read_apply]
  show V c main_v14 _ = _
  congr 1
  funext a
  apply Fin.ext
  match a with
  | ⟨0, _⟩ => show win0_3.index t 0 * 1 + 1 * 0 = 0; rw [(idx0_3 t).1]
  | ⟨1, _⟩ => show win0_3.index t 1 * 128 + 1 * j.val = j.val; rw [(idx0_3 t).2]; omega
theorem iblk0_4_apply (c : Dev nD) (t : Fin cfg0.N) (k : Fin 128) (j : Fin 128) :
    (iblk0 V c 4 t : Vec Ideal S128x128 .f32) (ix2 k j) = (V c main_arg4 : S128x128.Idx → EReal) (ix2 k j) := by
  unfold iblk0
  rw [View.read_apply]
  show V c main_arg4 _ = _
  congr 1
  funext a
  apply Fin.ext
  match a with
  | ⟨0, _⟩ => show win0_4.index t 0 * 128 + 1 * k.val = k.val; rw [(idx0_4 t).1]; omega
  | ⟨1, _⟩ => show win0_4.index t 1 * 128 + 1 * j.val = j.val; rw [(idx0_4 t).2]; omega

theorem pay4_blocks (c : Dev nD) (t : Fin cfg0.N) (q : Fin 5000) (j : Fin 128) :
    k0_pay4 (F := Ideal) (iblk0 V c 0 t) (iblk0 V c 2 t) (iblk0 V c 3 t) (iblk0 V c 1 t) (iblk0 V c 4 t) (ix2 q j) = hpre0 V c (ix2 (rowAt t q) j) := by
  refine (pay4_apply (iblk0 V c 0 t) (iblk0 V c 2 t) (iblk0 V c 3 t) (iblk0 V c 1 t) (iblk0 V c 4 t) q j).trans ?_
  simp only [iblk0_0_apply, iblk0_1_apply, iblk0_2_apply, iblk0_3_apply, iblk0_4_apply]
  rfl

def tileSum (c : Dev nD) (n : ℕ) (j : Fin 128) : EReal :=
  if h : n < cfg0.N then ∑ q : Fin 5000, hpre0 V c (ix2 (rowAt ⟨n, h⟩ q) j) else 0

def tileSumSq (c : Dev nD) (n : ℕ) (j : Fin 128) : EReal :=
  if h : n < cfg0.N then ∑ q : Fin 5000, hpre0 V c (ix2 (rowAt ⟨n, h⟩ q) j) * hpre0 V c (ix2 (rowAt ⟨n, h⟩ q) j) else 0

theorem tileSum_at (c : Dev nD) (t : Fin cfg0.N) (j : Fin 128) :
    tileSum V c t.val j = ∑ q : Fin 5000, hpre0 V c (ix2 (rowAt t q) j) := by
  unfold tileSum; rw [dif_pos t.isLt]
theorem tileSumSq_at (c : Dev nD) (t : Fin cfg0.N) (j : Fin 128) :
    tileSumSq V c t.val j = ∑ q : Fin 5000, hpre0 V c (ix2 (rowAt t q) j) * hpre0 V c (ix2 (rowAt t q) j) := by
  unfold tileSumSq; rw [dif_pos t.isLt]

theorem pay4_colsum (c : Dev nD) (t : Fin cfg0.N) (j : Fin 128) :
    ∑ q : Fin 5000, k0_pay4 (F := Ideal) (iblk0 V c 0 t) (iblk0 V c 2 t) (iblk0 V c 3 t) (iblk0 V c 1 t) (iblk0 V c 4 t) (ix2 q j) = tileSum V c t.val j :=
  (Finset.sum_congr rfl fun q _ => pay4_blocks V c t q j).trans (tileSum_at V c t j).symm
theorem pay4_colsumsq (c : Dev nD) (t : Fin cfg0.N) (j : Fin 128) :
    ∑ q : Fin 5000, k0_pay4 (F := Ideal) (iblk0 V c 0 t) (iblk0 V c 2 t) (iblk0 V c 3 t) (iblk0 V c 1 t) (iblk0 V c 4 t) (ix2 q j) * k0_pay4 (F := Ideal) (iblk0 V c 0 t) (iblk0 V c 2 t) (iblk0 V c 3 t) (iblk0 V c 1 t) (iblk0 V c 4 t) (ix2 q j) = tileSumSq V c t.val j :=
  (Finset.sum_congr rfl fun q _ => by rw [pay4_blocks V c t q j]).trans (tileSumSq_at V c t j).symm

theorem win5_at (c : Dev nD) (t : Fin cfg0.N) (q : Fin 5000) (j : Fin 128) :
    ((outsAt0 V c t.val t.isLt).1.1 : Vec Ideal S5000x128 .f32) (ix2 q j) = hpre0 V c (ix2 (rowAt t q) j) := by
  by_cases h0 : t.val % 20 = 0
  · have h1 : ¬t.val % 20 = 19 := by omega
    rw [outsAt0_A V c t h0 h1]; dsimp only
    exact (congrFun (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) (ix2 q j)).trans (pay4_blocks V c t q j)
  · by_cases h1 : t.val % 20 = 19
    · rw [outsAt0_C V c t h0 h1]; dsimp only
      exact (congrFun (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 q j)).trans (pay4_blocks V c t q j)
    · rw [outsAt0_B V c t h0 h1]; dsimp only
      exact (congrFun (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 q j)).trans (pay4_blocks V c t q j)

theorem scr0_first (c : Dev nD) (t : Fin cfg0.N) (h0 : t.val % 20 = 0) (j : Fin 128) :
    ((outsAt0 V c t.val t.isLt).2.1 : Vec Ideal S1x128 .f32) (ix2 0 j) = 0 + tileSum V c t.val j := by
  have h1 : ¬t.val % 20 = 19 := by omega
  rw [outsAt0_A V c t h0 h1]; dsimp only
  refine (congrFun (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) (ix2 0 j)).trans ?_
  refine (pay5_apply (iblk0 V c 0 t) (iblk0 V c 2 t) (iblk0 V c 3 t) (iblk0 V c 1 t) (iblk0 V c 4 t) (k0_pay2 (F := Ideal)) j).trans ?_
  rw [pay2_apply, pay4_colsum]

theorem scr0_next (c : Dev nD) (t : Fin cfg0.N) (h0 : ¬t.val % 20 = 0) (j : Fin 128) :
    ((outsAt0 V c t.val t.isLt).2.1 : Vec Ideal S1x128 .f32) (ix2 0 j)
      = ((outsAt0 V c (t.val - 1) (Nat.lt_of_le_of_lt (Nat.sub_le _ _) t.isLt)).2.1 : Vec Ideal S1x128 .f32) (ix2 0 j) + tileSum V c t.val j := by
  by_cases h1 : t.val % 20 = 19
  · rw [outsAt0_C V c t h0 h1]; dsimp only
    refine (congrFun (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 0 j)).trans ?_
    refine (pay5_apply (iblk0 V c 0 t) (iblk0 V c 2 t) (iblk0 V c 3 t) (iblk0 V c 1 t) (iblk0 V c 4 t) _ j).trans ?_
    rw [pay4_colsum]
  · rw [outsAt0_B V c t h0 h1]; dsimp only
    refine (congrFun (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 0 j)).trans ?_
    refine (pay5_apply (iblk0 V c 0 t) (iblk0 V c 2 t) (iblk0 V c 3 t) (iblk0 V c 1 t) (iblk0 V c 4 t) _ j).trans ?_
    rw [pay4_colsum]

theorem scr1_first (c : Dev nD) (t : Fin cfg0.N) (h0 : t.val % 20 = 0) (j : Fin 128) :
    ((outsAt0 V c t.val t.isLt).2.2 : Vec Ideal S1x128 .f32) (ix2 0 j) = 0 + tileSumSq V c t.val j := by
  have h1 : ¬t.val % 20 = 19 := by omega
  rw [outsAt0_A V c t h0 h1]; dsimp only
  refine (congrFun (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) (ix2 0 j)).trans ?_
  refine (pay6_apply (iblk0 V c 0 t) (iblk0 V c 2 t) (iblk0 V c 3 t) (iblk0 V c 1 t) (iblk0 V c 4 t) (k0_pay3 (F := Ideal)) j).trans ?_
  rw [pay3_apply, pay4_colsumsq]

theorem scr1_next (c : Dev nD) (t : Fin cfg0.N) (h0 : ¬t.val % 20 = 0) (j : Fin 128) :
    ((outsAt0 V c t.val t.isLt).2.2 : Vec Ideal S1x128 .f32) (ix2 0 j)
      = ((outsAt0 V c (t.val - 1) (Nat.lt_of_le_of_lt (Nat.sub_le _ _) t.isLt)).2.2 : Vec Ideal S1x128 .f32) (ix2 0 j) + tileSumSq V c t.val j := by
  by_cases h1 : t.val % 20 = 19
  · rw [outsAt0_C V c t h0 h1]; dsimp only
    refine (congrFun (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 0 j)).trans ?_
    refine (pay6_apply (iblk0 V c 0 t) (iblk0 V c 2 t) (iblk0 V c 3 t) (iblk0 V c 1 t) (iblk0 V c 4 t) _ j).trans ?_
    rw [pay4_colsumsq]
  · rw [outsAt0_B V c t h0 h1]; dsimp only
    refine (congrFun (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 0 j)).trans ?_
    refine (pay6_apply (iblk0 V c 0 t) (iblk0 V c 2 t) (iblk0 V c 3 t) (iblk0 V c 1 t) (iblk0 V c 4 t) _ j).trans ?_
    rw [pay4_colsumsq]

theorem win6_last (c : Dev nD) (t : Fin cfg0.N) (h1 : t.val % 20 = 19) :
    (outsAt0 V c t.val t.isLt).1.2.1 = (outsAt0 V c t.val t.isLt).2.1 := by
  have h0 : ¬t.val % 20 = 0 := by omega
  rw [outsAt0_C V c t h0 h1]; dsimp only
  exact (out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).trans (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).symm
theorem win7_last (c : Dev nD) (t : Fin cfg0.N) (h1 : t.val % 20 = 19) :
    (outsAt0 V c t.val t.isLt).1.2.2 = (outsAt0 V c t.val t.isLt).2.2 := by
  have h0 : ¬t.val % 20 = 0 := by omega
  rw [outsAt0_C V c t h0 h1]; dsimp only
  exact (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).trans (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).symm

theorem scr0_eq (c : Dev nD) : ∀ (n : ℕ) (h : n < cfg0.N) (j : Fin 128),
    ((outsAt0 V c n h).2.1 : Vec Ideal S1x128 .f32) (ix2 0 j) = ∑ t' ∈ Finset.range (n + 1), tileSum V c t' j
  | 0, h, j => by
    rw [Finset.sum_range_one]
    exact (scr0_first V c ⟨0, h⟩ rfl j).trans (zero_add _)
  | n + 1, h, j => by
    have hN : cfg0.N = 20 := N_0
    rw [Finset.sum_range_succ _ (n + 1), ← scr0_eq c n (Nat.lt_of_succ_lt h) j]
    exact scr0_next V c ⟨n + 1, h⟩ (by dsimp only; omega) j

theorem scr1_eq (c : Dev nD) : ∀ (n : ℕ) (h : n < cfg0.N) (j : Fin 128),
    ((outsAt0 V c n h).2.2 : Vec Ideal S1x128 .f32) (ix2 0 j) = ∑ t' ∈ Finset.range (n + 1), tileSumSq V c t' j
  | 0, h, j => by
    rw [Finset.sum_range_one]
    exact (scr1_first V c ⟨0, h⟩ rfl j).trans (zero_add _)
  | n + 1, h, j => by
    have hN : cfg0.N = 20 := N_0
    rw [Finset.sum_range_succ _ (n + 1), ← scr1_eq c n (Nat.lt_of_succ_lt h) j]
    exact scr1_next V c ⟨n + 1, h⟩ (by dsimp only; omega) j

theorem tiles_colSum (c : Dev nD) (j : Fin 128) : ∑ t' ∈ Finset.range 20, tileSum V c t' j = colSum (hpre0 V c) j := by
  have hN : cfg0.N = 20 := N_0
  unfold colSum
  rw [Finset.sum_range, Spec.sum_tiles (fun r => hpre0 V c (ix2 r j))]
  refine Finset.sum_congr rfl fun t _ => ?_
  exact tileSum_at V c ⟨t.val, by omega⟩ j
theorem tiles_colSumSq (c : Dev nD) (j : Fin 128) : ∑ t' ∈ Finset.range 20, tileSumSq V c t' j = colSumSq (hpre0 V c) j := by
  have hN : cfg0.N = 20 := N_0
  unfold colSumSq
  rw [Finset.sum_range, Spec.sum_tiles (fun r => hpre0 V c (ix2 r j) * hpre0 V c (ix2 r j))]
  refine Finset.sum_congr rfl fun t _ => ?_
  exact tileSumSq_at V c ⟨t.val, by omega⟩ j

theorem flushed0_5_eq (c : Dev nD) (t : Fin cfg0.N) :
    (dat0 V c).flushed 5 t = ((cfg0.win 5).blk t).view.read (Elt Ideal) (hpre0 V c) := by
  show (cfg0.win 5).cut (grid0.coords t) ((dat0 V c).after 5 t) = _
  rw [after0_5]
  refine funext fun (y : S5000x128.Idx) => ?_
  show ((outsAt0 V c t.val t.isLt).1.1 : Vec Ideal S5000x128 .f32) y = hpre0 V c (((cfg0.win 5).blk t).view.emb y)
  have e : ((cfg0.win 5).blk t).view.emb y = ix2 (rowAt t (y 0)) (y 1) := by
    funext a
    apply Fin.ext
    match a with
    | ⟨0, _⟩ => show win0_5.index t 0 * 5000 + 1 * (y 0).val = 5000 * t.val + (y 0).val; rw [(idx0_5 t).1]; omega
    | ⟨1, _⟩ => show win0_5.index t 1 * 128 + 1 * (y 1).val = (y 1).val; rw [(idx0_5 t).2]; omega
  rw [e]
  exact (congrArg _ (eq_ix2 y)).trans (win5_at V c t (y 0) (y 1))

theorem cover0_5 (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  refine ⟨t, flush0_5 t, ?_⟩
  show i ∈ ((View.whole main_v15_0).slice (win0_5.rect t)).set
  rw [View.set_slice_whole, Rect.mem_set_unit]
  intro a
  match a with
  | ⟨0, _⟩ => show win0_5.index t 0 * 5000 ≤ (i 0).val ∧ (i 0).val < win0_5.index t 0 * 5000 + 5000; rw [(idx0_5 t).1]; omega
  | ⟨1, _⟩ => show win0_5.index t 1 * 128 ≤ (i 1).val ∧ (i 1).val < win0_5.index t 1 * 128 + 128; rw [(idx0_5 t).2]; omega

theorem arr0_5 (c : Dev nD) : ((dat0 (F := Ideal) V c).arrAt 5 cfg0.N : S100000x128.Idx → EReal) = hpre0 V c :=
  (dat0 V c).arrAt_eq_of_cover 5 (hpre0 V c) (fun t _ => flushed0_5_eq V c t) cover0_5

abbrev sumRow (c : Dev nD) : S1x128.Idx → EReal := fun i => colSum (hpre0 V c) (i 1)

abbrev sumSqRow (c : Dev nD) : S1x128.Idx → EReal := fun i => colSumSq (hpre0 V c) (i 1)

theorem eq_ix2_row (y : S1x128.Idx) : y = ix2 0 (y 1) := by
  funext a
  match a with
  | ⟨0, _⟩ => exact Fin.ext (by show (y 0).val = 0; have h : (y 0).val < 1 := (y 0).isLt; omega)
  | ⟨1, _⟩ => rfl

theorem flushed0_6_eq (c : Dev nD) (t : Fin cfg0.N) (hf : (cfg0.win 6).flush t = true) :
    (dat0 V c).flushed 6 t = ((cfg0.win 6).blk t).view.read (Elt Ideal) (sumRow V c) := by
  have hN : cfg0.N = 20 := N_0
  have h1 : t.val % 20 = 19 := (flush0_6 t).mp hf
  show (cfg0.win 6).cut (grid0.coords t) ((dat0 V c).after 6 t) = _
  rw [after0_6, win6_last V c t h1]
  have hz' : (fun a => win0_6.index t a * main_v15_1.ty.shape.size a) = fun _ => 0 := funext fun a => by
    match a with
    | ⟨0, _⟩ => show win0_6.index t 0 * 1 = 0; rw [(idx0_6 t).1]
    | ⟨1, _⟩ => show win0_6.index t 1 * 128 = 0; rw [(idx0_6 t).2]
  refine Eq.trans ?_ (Memref.read_access_unit_zero (Elt Ideal) main_v15_1 hz' (fun a => by rw [congrFun hz' a]; simp) (sumRow V c)).symm
  refine funext fun (y : S1x128.Idx) => ?_
  refine (congrArg _ (eq_ix2_row y)).trans ?_
  refine (scr0_eq V c t.val t.isLt (y 1)).trans ?_
  rw [show t.val + 1 = 20 by have := t.isLt; omega]
  exact tiles_colSum V c (y 1)

theorem flushed0_7_eq (c : Dev nD) (t : Fin cfg0.N) (hf : (cfg0.win 7).flush t = true) :
    (dat0 V c).flushed 7 t = ((cfg0.win 7).blk t).view.read (Elt Ideal) (sumSqRow V c) := by
  have hN : cfg0.N = 20 := N_0
  have h1 : t.val % 20 = 19 := (flush0_7 t).mp hf
  show (cfg0.win 7).cut (grid0.coords t) ((dat0 V c).after 7 t) = _
  rw [after0_7, win7_last V c t h1]
  have hz' : (fun a => win0_7.index t a * main_v15_2.ty.shape.size a) = fun _ => 0 := funext fun a => by
    match a with
    | ⟨0, _⟩ => show win0_7.index t 0 * 1 = 0; rw [(idx0_7 t).1]
    | ⟨1, _⟩ => show win0_7.index t 1 * 128 = 0; rw [(idx0_7 t).2]
  refine Eq.trans ?_ (Memref.read_access_unit_zero (Elt Ideal) main_v15_2 hz' (fun a => by rw [congrFun hz' a]; simp) (sumSqRow V c)).symm
  refine funext fun (y : S1x128.Idx) => ?_
  refine (congrArg _ (eq_ix2_row y)).trans ?_
  refine (scr1_eq V c t.val t.isLt (y 1)).trans ?_
  rw [show t.val + 1 = 20 by have := t.isLt; omega]
  exact tiles_colSumSq V c (y 1)

theorem cover0_6 (i : S1x128.Idx) :
    ∃ t : Fin cfg0.N, (cfg0.win 6).flush t = true ∧ i ∈ ((cfg0.win 6).blk t).view.set := by
  have hN : cfg0.N = 20 := N_0
  have hi0 : (i 0).val < 1 := (i 0).isLt
  have hi1 : (i 1).val < 128 := (i 1).isLt
  obtain ⟨t, ht⟩ : ∃ t : Fin cfg0.N, t.val = 19 := ⟨⟨19, by omega⟩, rfl⟩
  refine ⟨t, (flush0_6 t).mpr (by omega), ?_⟩
  show i ∈ ((View.whole main_v15_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [(idx0_6 t).1]; omega
  | ⟨1, _⟩ => show win0_6.index t 1 * 128 ≤ (i 1).val ∧ (i 1).val < win0_6.index t 1 * 128 + 128; rw [(idx0_6 t).2]; omega
theorem cover0_7 (i : S1x128.Idx) :
    ∃ t : Fin cfg0.N, (cfg0.win 7).flush t = true ∧ i ∈ ((cfg0.win 7).blk t).view.set := by
  have hN : cfg0.N = 20 := N_0
  have hi0 : (i 0).val < 1 := (i 0).isLt
  have hi1 : (i 1).val < 128 := (i 1).isLt
  obtain ⟨t, ht⟩ : ∃ t : Fin cfg0.N, t.val = 19 := ⟨⟨19, by omega⟩, rfl⟩
  refine ⟨t, (flush0_7 t).mpr (by omega), ?_⟩
  show i ∈ ((View.whole main_v15_2).slice (win0_7.rect t)).set
  rw [View.set_slice_whole, Rect.mem_set_unit]
  intro a
  match a with
  | ⟨0, _⟩ => show win0_7.index t 0 * 1 ≤ (i 0).val ∧ (i 0).val < win0_7.index t 0 * 1 + 1; rw [(idx0_7 t).1]; omega
  | ⟨1, _⟩ => show win0_7.index t 1 * 128 ≤ (i 1).val ∧ (i 1).val < win0_7.index t 1 * 128 + 128; rw [(idx0_7 t).2]; omega

theorem arr0_6 (c : Dev nD) : ∀ j : Fin 128, (dat0 (F := Ideal) V c).arrAt 6 cfg0.N (ix2 0 j) = colSum (hpre0 V c) j := fun j =>
  congrFun ((dat0 V c).arrAt_eq_of_cover 6 (sumRow V c) (flushed0_6_eq V c) cover0_6) (ix2 0 j)

theorem arr0_7 (c : Dev nD) : ∀ j : Fin 128, (dat0 (F := Ideal) V c).arrAt 7 cfg0.N (ix2 0 j) = colSumSq (hpre0 V c) j := fun j =>
  congrFun ((dat0 V c).arrAt_eq_of_cover 7 (sumSqRow V c) (flushed0_7_eq V c) cover0_7) (ix2 0 j)

end Cert.KernelIdeal.Hand

end
-- ==== Proof.KI.BnVal1.lean ====
import proofs.«154965_j36919538876772_1_alg».proof.Proof.KI.Bn1
import proofs.«154965_j36919538876772_1_alg».proof.Proof.Spec.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (nRows eps zeroLit)

variable (V : (c : Dev nD) → (b : Ref sig .tc) → Buf (Elt Ideal) ((c : Thread nD τ).loc b))

private theorem zeroOffsets : (![0, 0] : Fin 2 → Nat) = fun _ => 0 := funext fun a => by fin_cases a <;> rfl

private theorem rsqrtAt {s : Shape} {φ : FTy} (a : FVec Ideal s φ) (i : s.Idx) : rsqrt a i = Ideal.rsqrt (a i) := rfl

theorem normalised1 (x0 : Vec Ideal S5000x128 .f32) (x1 x2 x3 x4 : Vec Ideal S1x128 .f32) (q : Fin 5000) (j : Fin 128) :
    (out1_5 x0 x1 x2 x3 x4 (ix2 q j) : EReal)
      = max ((((x0 (ix2 q j) : EReal) - Ideal.div (x3 (ix2 0 j)) nRows)
          * Ideal.rsqrt ((Ideal.div (x4 (ix2 0 j)) nRows - Ideal.div (x3 (ix2 0 j)) nRows * Ideal.div (x3 (ix2 0 j)) nRows) + eps))
          * x1 (ix2 0 j) + x2 (ix2 0 j)) zeroLit := by
  unfold out1_5
  rw [View.canon_unit_zero zeroOffsets]
  simp only [View.ld_unit_zero (S := S5000x128) zeroOffsets, View.ld_unit_zero (S := S1x128) zeroOffsets]
  unfold k1_pay1
  simp only [shapeCast_self]
  simp only [maximumf_apply, addf_apply, mulf_apply, subf_apply, broadcastTo_1b_ab_apply, rsqrtAt, divf_apply, broadcast_apply]
  rfl

theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blockRows1 (c : Dev nD) (t : Fin cfg1.N) (q : Fin 5000) (j : Fin 128) (i : S100000x128.Idx)
    (hi0 : (i 0).val = 5000 * t.val + q.val) (hi1 : (i 1).val = j.val) :
    (iblk1 V c 0 t : Vec Ideal S5000x128 .f32) (ix2 q j) = (V c main_v15_0 : S100000x128.Idx → EReal) i := by
  obtain ⟨e0, e1, -⟩ := blockIndex1 t
  unfold iblk1
  rw [View.read_apply]
  show V c main_v15_0 _ = V c main_v15_0 _
  congr 1
  funext a
  apply Fin.ext
  match a with
  | ⟨0, _⟩ => show win1_0.index t 0 * 5000 + 1 * q.val = (i 0).val; rw [e0, hi0]; omega
  | ⟨1, _⟩ => show win1_0.index t 1 * 128 + 1 * j.val = (i 1).val; rw [e1, hi1]; omega

theorem rowBlock1_1 (c : Dev nD) (t : Fin cfg1.N) (j : Fin 128) :
    (iblk1 V c 1 t : Vec Ideal S1x128 .f32) (ix2 0 j) = (V c main_v16 : S1x128.Idx → EReal) (ix2 0 j) := by
  obtain ⟨-, -, e0, e1, -⟩ := blockIndex1 t
  unfold iblk1
  rw [View.read_apply]
  show V c main_v16 _ = V c main_v16 _
  congr 1
  funext a
  apply Fin.ext
  match a with
  | ⟨0, _⟩ => show win1_1.index t 0 * 1 + 1 * 0 = 0; rw [e0]
  | ⟨1, _⟩ => show win1_1.index t 1 * 128 + 1 * j.val = j.val; rw [e1]; omega

theorem rowBlock1_2 (c : Dev nD) (t : Fin cfg1.N) (j : Fin 128) :
    (iblk1 V c 2 t : Vec Ideal S1x128 .f32) (ix2 0 j) = (V c main_v17 : S1x128.Idx → EReal) (ix2 0 j) := by
  obtain ⟨-, -, -, -, e0, e1, -⟩ := blockIndex1 t
  unfold iblk1
  rw [View.read_apply]
  show V c main_v17 _ = V c main_v17 _
  congr 1
  funext a
  apply Fin.ext
  match a with
  | ⟨0, _⟩ => show win1_2.index t 0 * 1 + 1 * 0 = 0; rw [e0]
  | ⟨1, _⟩ => show win1_2.index t 1 * 128 + 1 * j.val = j.val; rw [e1]; omega

theorem rowBlock1_3 (c : Dev nD) (t : Fin cfg1.N) (j : Fin 128) :
    (iblk1 V c 3 t : Vec Ideal S1x128 .f32) (ix2 0 j) = (V c main_v15_1 : S1x128.Idx → EReal) (ix2 0 j) := by
  obtain ⟨-, -, -, -, -, -, e0, e1, -⟩ := blockIndex1 t
  unfold iblk1
  rw [View.read_apply]
  show V c main_v15_1 _ = V c main_v15_1 _
  congr 1
  funext a
  apply Fin.ext
  match a with
  | ⟨0, _⟩ => show win1_3.index t 0 * 1 + 1 * 0 = 0; rw [e0]
  | ⟨1, _⟩ => show win1_3.index t 1 * 128 + 1 * j.val = j.val; rw [e1]; omega

theorem rowBlock1_4 (c : Dev nD) (t : Fin cfg1.N) (j : Fin 128) :
    (iblk1 V c 4 t : Vec Ideal S1x128 .f32) (ix2 0 j) = (V c main_v15_2 : S1x128.Idx → EReal) (ix2 0 j) := by
  obtain ⟨-, -, -, -, -, -, -, -, e0, e1, -⟩ := blockIndex1 t
  unfold iblk1
  rw [View.read_apply]
  show V c main_v15_2 _ = V c main_v15_2 _
  congr 1
  funext a
  apply Fin.ext
  match a with
  | ⟨0, _⟩ => show win1_4.index t 0 * 1 + 1 * 0 = 0; rw [e0]
  | ⟨1, _⟩ => show win1_4.index t 1 * 128 + 1 * j.val = j.val; rw [e1]; omega

theorem outEntry1 (t : Fin cfg1.N) (q : Fin 5000) (j : Fin 128) :
    ((((cfg1.win 5).blk t).view.emb (ix2 q j) : S100000x128.Idx) 0).val = 5000 * t.val + q.val
    ∧ (((cfg1.win 5).blk t).view.emb (ix2 q j) : S100000x128.Idx) 1 = j := by
  obtain ⟨-, -, -, -, -, -, -, -, -, -, e0, e1⟩ := blockIndex1 t
  refine ⟨?_, Fin.ext ?_⟩
  · show win1_5.index t 0 * 5000 + 1 * q.val = 5000 * t.val + q.val; rw [e0]; omega
  · show win1_5.index t 1 * 128 + 1 * j.val = j.val; rw [e1]; omega

def bnArr1 (c : Dev nD) : S100000x128.Idx → EReal :=
  Cert.Spec.bnSums (V c main_v15_0 : S100000x128.Idx → EReal) (fun j => (V c main_v15_1 : S1x128.Idx → EReal) (ix2 0 j)) (fun j => (V c main_v15_2 : S1x128.Idx → EReal) (ix2 0 j))
    (fun j => (V c main_v16 : S1x128.Idx → EReal) (ix2 0 j)) (fun j => (V c main_v17 : S1x128.Idx → EReal) (ix2 0 j))

theorem flushed1_5_eq (c : Dev nD) (t : Fin cfg1.N) :
    (dat1 V c).flushed 5 t = ((cfg1.win 5).blk t).view.read (Elt Ideal) (bnArr1 V c) := by
  show (cfg1.win 5).cut (grid1.coords t) ((dat1 V c).after 5 t) = _
  rw [after1_5]
  funext y
  obtain ⟨q, j, rfl⟩ : ∃ (q : Fin 5000) (j : Fin 128), y = ix2 q j := ⟨y 0, y 1, eq_ix2 (n0 := 5000) (n1 := 128) y⟩
  show (out1_5 (iblk1 V c 0 t) (iblk1 V c 1 t) (iblk1 V c 2 t) (iblk1 V c 3 t) (iblk1 V c 4 t) (ix2 q j) : EReal)
    = bnArr1 V c (((cfg1.win 5).blk t).view.emb (ix2 q j))
  obtain ⟨h0, h1⟩ := outEntry1 t q j
  generalize (((cfg1.win 5).blk t).view.emb (ix2 q j) : S100000x128.Idx) = i at h0 h1 ⊢
  refine (normalised1 _ _ _ _ _ q j).trans ?_
  rw [blockRows1 V c t q j i h0 (congrArg Fin.val h1), rowBlock1_1 V c t j, rowBlock1_2 V c t j, rowBlock1_3 V c t j, rowBlock1_4 V c t j]
  unfold bnArr1 Cert.Spec.bnSums
  rw [h1]

theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v18).slice (win1_5.rect t)).set ↔ _
  rw [View.set_slice_whole, Rect.mem_set_unit]
  exact Iff.rfl

theorem blocksCover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, -, -, -, -, -, -, -, e0, e1⟩ := blockIndex1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

theorem arr1_5 (c : Dev nD) : ((dat1 (F := Ideal) V c).arrAt 5 cfg1.N : S100000x128.Idx → EReal)
    = Cert.Spec.bnSums (V c main_v15_0) (fun j => V c main_v15_1 (ix2 0 j)) (fun j => V c main_v15_2 (ix2 0 j)) (fun j => V c main_v16 (ix2 0 j)) (fun j => V c main_v17 (ix2 0 j)) :=
  (dat1 V c).arrAt_eq_of_cover 5 (bnArr1 V c) (fun t _ => flushed1_5_eq V c t) (blocksCover1)

end Cert.KernelIdeal.Hand

end
-- ==== Proof.KI.GcVal2a.lean ====
import proofs.«154965_j36919538876772_1_alg».proof.Proof.Gen.KernelIdeal.Skeleton
import proofs.«154965_j36919538876772_1_alg».proof.Proof.Gen.KernelIdeal.Launch
import proofs.«154965_j36919538876772_1_alg».proof.Proof.Gen.KernelIdeal.Points
import proofs.«154965_j36919538876772_1_alg».proof.Proof.Spec.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open scoped BigOperators

theorem lhs_dot2_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl

theorem lhs_dot2_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q

theorem rhs_dot2_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q

theorem rhs_dot2_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

theorem matmul2_apply (a : FVec Ideal S5000x128 .f32) (w : FVec Ideal S128x32 .f32) (q : Fin 5000) (j : Fin 32) :
    matmul (F := Ideal) (φ₁ := .f32) (φ₂ := .f32) dot_S5000x128_S128x32_S5000x32_1_0_0_1_n_n none a w (constant S5000x32 .f32 0x00000000#32) (ix2 q j)
      = ∑ k : Fin 128, a (ix2 q k) * w (ix2 k j) := by
  simp only [matmul]
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ix2 q j) ((ValueIdx.contrEquiv1 dot_S5000x128_S128x32_S5000x32_1_0_0_1_n_n 128 rfl rfl).symm k) = ix2 q k := funext fun a => Fin.ext (by
    match a with
    | ⟨0, _⟩ => exact lhs_dot2_0 _ _
    | ⟨1, _⟩ => exact (lhs_dot2_1 _ _).trans hk)
  have er : dot_S5000x128_S128x32_S5000x32_1_0_0_1_n_n.rhsIdx (ix2 q j) ((ValueIdx.contrEquiv1 dot_S5000x128_S128x32_S5000x32_1_0_0_1_n_n 128 rfl rfl).symm k) = ix2 k j := funext fun a => Fin.ext (by
    match a with
    | ⟨0, _⟩ => exact (rhs_dot2_0 _ _).trans hk
    | ⟨1, _⟩ => exact rhs_dot2_1 _ _)
  rw [el, er]

theorem k2pay4_apply (a : Vec Ideal S5000x128 .f32) (wr : Vec Ideal S128x32 .f32) (b : Vec Ideal S1x32 .f32)
    (x : Vec Ideal S5000x128 .f32) (wo : Vec Ideal S128x32 .f32) (q : Fin 5000) (j : Fin 32) :
    k2_pay4 a wr b x wo (ix2 q j)
      = ((∑ k : Fin 128, a (ix2 q k) * wr (ix2 k j)) + b (ix2 0 j)) + ∑ k : Fin 128, x (ix2 q k) * wo (ix2 k j) := by
  unfold k2_pay4
  simp only [shapeCast_self]
  show (matmul (F := Ideal) (φ₁ := .f32) (φ₂ := .f32) dot_S5000x128_S128x32_S5000x32_1_0_0_1_n_n none a wr (constant S5000x32 .f32 0x00000000#32) (ix2 q j)
      + broadcastTo S5000x32 b broadcasts_S1x32_S5000x32 (ix2 q j))
      + matmul (F := Ideal) (φ₁ := .f32) (φ₂ := .f32) dot_S5000x128_S128x32_S5000x32_1_0_0_1_n_n none x wo (constant S5000x32 .f32 0x00000000#32) (ix2 q j) = _
  rw [matmul2_apply, matmul2_apply, broadcastTo_1b_ab_apply]

theorem colred2_apply (v : FVec Ideal S5000x32 .f32) (j : Fin 32) :
    multiReduction (F := Ideal) .add [0] S32 v 0x00000000#32 reduces_S5000x32_S32 (.inl rfl) rfl (ix1 j) = ∑ q : Fin 5000, v (ix2 q j) := by
  refine (Ideal.multiReduction_add_single v _ reduces_S5000x32_S32 _ _ (ix1 j)).trans ?_
  refine Finset.sum_congr rfl fun q _ => congrArg v ?_
  funext a
  match a with
  | ⟨0, _⟩ => rfl
  | ⟨1, _⟩ => rfl

theorem row2_apply (v : FVec Ideal S32 .f32) (j : Fin 32) :
    shapeCast S1x32 v shapeCasts_S32_S1x32 (ix2 0 j) = v (ix1 j) := by
  refine (shapeCast_apply v shapeCasts_S32_S1x32 (ix2 0 j) (ix1 j) ?_)
  rw [Shape.rowMajor_val_two, Shape.rowMajor_val_one]
  show j.val = 0 * 32 + j.val
  omega

theorem k2pay5_apply (a : Vec Ideal S5000x128 .f32) (wr : Vec Ideal S128x32 .f32) (b : Vec Ideal S1x32 .f32)
    (x : Vec Ideal S5000x128 .f32) (wo : Vec Ideal S128x32 .f32) (xs : Vec Ideal S1x32 .f32) (j : Fin 32) :
    k2_pay5 a wr b x wo xs (ix2 0 j) = xs (ix2 0 j) + ∑ q : Fin 5000, k2_pay4 a wr b x wo (ix2 q j) := by
  unfold k2_pay5
  simp only [shapeCast_self]
  show xs (ix2 0 j) + shapeCast S1x32 (multiReduction (F := Ideal) .add [0] S32 (k2_pay4 a wr b x wo) 0x00000000#32 reduces_S5000x32_S32 (.inl rfl) rfl) shapeCasts_S32_S1x32 (ix2 0 j) = _
  rw [row2_apply, colred2_apply]

theorem k2pay6_apply (a : Vec Ideal S5000x128 .f32) (wr : Vec Ideal S128x32 .f32) (b : Vec Ideal S1x32 .f32)
    (x : Vec Ideal S5000x128 .f32) (wo : Vec Ideal S128x32 .f32) (xs : Vec Ideal S1x32 .f32) (j : Fin 32) :
    k2_pay1 (k2_pay6 a wr b x wo xs) (ix2 0 j)
      = xs (ix2 0 j) + ∑ q : Fin 5000, k2_pay4 a wr b x wo (ix2 q j) * k2_pay4 a wr b x wo (ix2 q j) := by
  unfold k2_pay1 k2_pay6
  simp only [shapeCast_self]
  show xs (ix2 0 j) + shapeCast S1x32 (multiReduction (F := Ideal) .add [0] S32 (mulf (k2_pay4 a wr b x wo) (k2_pay4 a wr b x wo)) 0x00000000#32 reduces_S5000x32_S32 (.inl rfl) rfl) shapeCasts_S32_S1x32 (ix2 0 j) = _
  rw [row2_apply, colred2_apply]
  rfl

theorem k2pay2_apply (i : S1x32.Idx) : k2_pay2 (F := Ideal) i = 0 := by
  unfold k2_pay2
  simp only [shapeCast_self]
  exact Ideal.ofBits_zero_f32

theorem k2pay3_apply (i : S1x32.Idx) : k2_pay3 (F := Ideal) i = 0 := by
  unfold k2_pay3
  simp only [shapeCast_self]
  exact Ideal.ofBits_zero_f32

section Blocks
variable (V : (c : Dev nD) → (b : Ref sig .tc) → Buf (Elt Ideal) ((c : Thread nD τ).loc b)) (c : Dev nD)

theorem N2 : cfg2.N = 20 := N_2

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem xsize_facts2 : ∀ t : Fin cfg2.N,
    win2_5.xsize (grid2.coords t) (0 : Fin 2) = 5000 ∧ win2_5.xsize (grid2.coords t) (1 : Fin 2) = 32
    ∧ win2_6.xsize (grid2.coords t) (0 : Fin 2) = 1 ∧ win2_6.xsize (grid2.coords t) (1 : Fin 2) = 32
    ∧ win2_7.xsize (grid2.coords t) (0 : Fin 2) = 1 ∧ win2_7.xsize (grid2.coords t) (1 : Fin 2) = 32 :=
  (by decide +kernel : ∀ t : Fin grid2.N, _)

theorem row2_lt (t : Fin cfg2.N) (q : Fin 5000) : 5000 * t.val + q.val < 100000 := by
  have := t.isLt; have := N2; have := q.isLt; omega

theorem read_blk2_0 (t : Fin cfg2.N) (q : Fin 5000) (k : Fin 128) :
    (((cfg2.win 0).blk t).view.read (Elt Ideal) (V c (Pipeline.arrRef spec2 0)) : Vec Ideal S5000x128 .f32) (ix2 q k)
      = V c main_v28 (ix2 ⟨5000 * t.val + q.val, row2_lt t q⟩ k) := by
  rw [View.read_apply]
  show V c main_v28 _ = V c main_v28 _
  congr 1
  funext a
  apply Fin.ext
  obtain ⟨e0, e1, -⟩ := idx_facts2 t
  match a with
  | ⟨0, _⟩ => show win2_0.index t (0 : Fin 2) * 5000 + 1 * q.val = 5000 * t.val + q.val; rw [e0]; omega
  | ⟨1, _⟩ => show win2_0.index t (1 : Fin 2) * 128 + 1 * k.val = k.val; rw [e1]; omega

theorem read_blk2_1 (t : Fin cfg2.N) (q : Fin 5000) (k : Fin 128) :
    (((cfg2.win 1).blk t).view.read (Elt Ideal) (V c (Pipeline.arrRef spec2 1)) : Vec Ideal S5000x128 .f32) (ix2 q k)
      = V c main_v18 (ix2 ⟨5000 * t.val + q.val, row2_lt t q⟩ k) := by
  rw [View.read_apply]
  show V c main_v18 _ = V c main_v18 _
  congr 1
  funext a
  apply Fin.ext
  obtain ⟨-, -, e0, e1, -⟩ := idx_facts2 t
  match a with
  | ⟨0, _⟩ => show win2_1.index t (0 : Fin 2) * 5000 + 1 * q.val = 5000 * t.val + q.val; rw [e0]; omega
  | ⟨1, _⟩ => show win2_1.index t (1 : Fin 2) * 128 + 1 * k.val = k.val; rw [e1]; omega

theorem read_blk2_2 (t : Fin cfg2.N) :
    (((cfg2.win 2).blk t).view.read (Elt Ideal) (V c (Pipeline.arrRef spec2 2)) : Vec Ideal S128x32 .f32) = V c main_arg7 := by
  funext j
  rw [View.read_apply]
  show V c main_arg7 _ = V c main_arg7 _
  congr 1
  funext a
  apply Fin.ext
  obtain ⟨-, -, -, -, e0, e1, -⟩ := idx_facts2 t
  match a with
  | ⟨0, _⟩ => show win2_2.index t (0 : Fin 2) * 128 + 1 * (j 0).val = (j 0).val; rw [e0]; omega
  | ⟨1, _⟩ => show win2_2.index t (1 : Fin 2) * 32 + 1 * (j 1).val = (j 1).val; rw [e1]; omega

theorem read_blk2_3 (t : Fin cfg2.N) :
    (((cfg2.win 3).blk t).view.read (Elt Ideal) (V c (Pipeline.arrRef spec2 3)) : Vec Ideal S1x32 .f32) = V c main_v29 := by
  funext j
  rw [View.read_apply]
  show V c main_v29 _ = V c main_v29 _
  congr 1
  funext a
  apply Fin.ext
  obtain ⟨-, -, -, -, -, -, e0, e1, -⟩ := idx_facts2 t
  match a with
  | ⟨0, _⟩ => show win2_3.index t (0 : Fin 2) * 1 + 1 * (j 0).val = (j 0).val; rw [e0]; omega
  | ⟨1, _⟩ => show win2_3.index t (1 : Fin 2) * 32 + 1 * (j 1).val = (j 1).val; rw [e1]; omega

theorem read_blk2_4 (t : Fin cfg2.N) :
    (((cfg2.win 4).blk t).view.read (Elt Ideal) (V c (Pipeline.arrRef spec2 4)) : Vec Ideal S128x32 .f32) = V c main_arg9 := by
  funext j
  rw [View.read_apply]
  show V c main_arg9 _ = V c main_arg9 _
  congr 1
  funext a
  apply Fin.ext
  obtain ⟨-, -, -, -, -, -, -, -, e0, e1, -⟩ := idx_facts2 t
  match a with
  | ⟨0, _⟩ => show win2_4.index t (0 : Fin 2) * 128 + 1 * (j 0).val = (j 0).val; rw [e0]; omega
  | ⟨1, _⟩ => show win2_4.index t (1 : Fin 2) * 32 + 1 * (j 1).val = (j 1).val; rw [e1]; omega

theorem read_blk2_5 (G : Mat 100000 32) (t : Fin cfg2.N) (y : S5000x32.Idx) :
    (((cfg2.win 5).blk t).view.read (Elt Ideal) (G : Buf (Elt Ideal) ((c : Thread nD τ).loc main_v30_0)) : Vec Ideal S5000x32 .f32) y
      = G (ix2 ⟨5000 * t.val + (y 0).val, row2_lt t (y 0)⟩ (y 1)) := by
  rw [View.read_apply]
  show G _ = G _
  congr 1
  funext a
  apply Fin.ext
  obtain ⟨-, -, -, -, -, -, -, -, -, -, e0, e1, -⟩ := idx_facts2 t
  match a with
  | ⟨0, _⟩ => show win2_5.index t (0 : Fin 2) * 5000 + 1 * (y 0).val = 5000 * t.val + (y 0).val; rw [e0]; omega
  | ⟨1, _⟩ => show win2_5.index t (1 : Fin 2) * 32 + 1 * (y 1).val = (y 1).val; rw [e1]; omega

theorem mem_blk2_5 (t : Fin cfg2.N) (i : S100000x32.Idx) :
    i ∈ ((cfg2.win 5).blk t).view.set ↔ 5000 * t.val ≤ (i 0).val ∧ (i 0).val < 5000 * t.val + 5000 := by
  show i ∈ ((View.whole main_v30_0).slice (win2_5.rect t)).set ↔ _
  rw [View.set_slice_whole, Rect.mem_set_unit]
  obtain ⟨-, -, -, -, -, -, -, -, -, -, e0, e1, -⟩ := idx_facts2 t
  obtain ⟨x0, x1, -⟩ := xsize_facts2 t
  have h1 : (i 1).val < 32 := (i 1).isLt
  constructor
  · intro h
    have b0 : win2_5.index t (0 : Fin 2) * win2_5.size 0 ≤ (i 0).val ∧ (i 0).val < win2_5.index t (0 : Fin 2) * win2_5.size 0 + win2_5.xsize (grid2.coords t) 0 := h 0
    rw [e0, x0] at b0
    have : win2_5.size 0 = 5000 := rfl
    rw [this] at b0
    omega
  · intro h a
    match a with
    | ⟨0, _⟩ =>
      show win2_5.index t (0 : Fin 2) * win2_5.size 0 ≤ (i 0).val ∧ (i 0).val < win2_5.index t (0 : Fin 2) * win2_5.size 0 + win2_5.xsize (grid2.coords t) 0
      rw [e0, x0, show win2_5.size 0 = 5000 from rfl]; omega
    | ⟨1, _⟩ =>
      show win2_5.index t (1 : Fin 2) * win2_5.size 1 ≤ (i 1).val ∧ (i 1).val < win2_5.index t (1 : Fin 2) * win2_5.size 1 + win2_5.xsize (grid2.coords t) 1
      rw [e1, x1, show win2_5.size 1 = 32 from rfl]; omega

theorem read_blk2_6 (G : S1x32.Idx → EReal) (t : Fin cfg2.N) :
    (((cfg2.win 6).blk t).view.read (Elt Ideal) (G : Buf (Elt Ideal) ((c : Thread nD τ).loc main_v30_1)) : Vec Ideal S1x32 .f32) = G := by
  funext j
  rw [View.read_apply]
  show G _ = G _
  congr 1
  funext a
  apply Fin.ext
  obtain ⟨-, -, -, -, -, -, -, -, -, -, -, -, e0, e1, -⟩ := idx_facts2 t
  match a with
  | ⟨0, _⟩ => show win2_6.index t (0 : Fin 2) * 1 + 1 * (j 0).val = (j 0).val; rw [e0]; omega
  | ⟨1, _⟩ => show win2_6.index t (1 : Fin 2) * 32 + 1 * (j 1).val = (j 1).val; rw [e1]; omega

theorem read_blk2_7 (G : S1x32.Idx → EReal) (t : Fin cfg2.N) :
    (((cfg2.win 7).blk t).view.read (Elt Ideal) (G : Buf (Elt Ideal) ((c : Thread nD τ).loc main_v30_2)) : Vec Ideal S1x32 .f32) = G := by
  funext j
  rw [View.read_apply]
  show G _ = G _
  congr 1
  funext a
  apply Fin.ext
  obtain ⟨-, -, -, -, -, -, -, -, -, -, -, -, -, -, e0, e1⟩ := idx_facts2 t
  match a with
  | ⟨0, _⟩ => show win2_7.index t (0 : Fin 2) * 1 + 1 * (j 0).val = (j 0).val; rw [e0]; omega
  | ⟨1, _⟩ => show win2_7.index t (1 : Fin 2) * 32 + 1 * (j 1).val = (j 1).val; rw [e1]; omega

theorem mem_blk2_6 (t : Fin cfg2.N) (i : S1x32.Idx) : i ∈ ((cfg2.win 6).blk t).view.set := by
  show i ∈ ((View.whole main_v30_1).slice (win2_6.rect t)).set
  rw [View.set_slice_whole, Rect.mem_set_unit]
  obtain ⟨-, -, -, -, -, -, -, -, -, -, -, -, e0, e1, -⟩ := idx_facts2 t
  obtain ⟨-, -, x0, x1, -⟩ := xsize_facts2 t
  have h0 : (i 0).val < 1 := (i 0).isLt
  have h1 : (i 1).val < 32 := (i 1).isLt
  intro a
  match a with
  | ⟨0, _⟩ =>
    show win2_6.index t (0 : Fin 2) * win2_6.size 0 ≤ (i 0).val ∧ (i 0).val < win2_6.index t (0 : Fin 2) * win2_6.size 0 + win2_6.xsize (grid2.coords t) 0
    rw [e0, x0]; omega
  | ⟨1, _⟩ =>
    show win2_6.index t (1 : Fin 2) * win2_6.size 1 ≤ (i 1).val ∧ (i 1).val < win2_6.index t (1 : Fin 2) * win2_6.size 1 + win2_6.xsize (grid2.coords t) 1
    rw [e1, x1]; omega

theorem mem_blk2_7 (t : Fin cfg2.N) (i : S1x32.Idx) : i ∈ ((cfg2.win 7).blk t).view.set := by
  show i ∈ ((View.whole main_v30_2).slice (win2_7.rect t)).set
  rw [View.set_slice_whole, Rect.mem_set_unit]
  obtain ⟨-, -, -, -, -, -, -, -, -, -, -, -, -, -, e0, e1⟩ := idx_facts2 t
  obtain ⟨-, -, -, -, x0, x1⟩ := xsize_facts2 t
  have h0 : (i 0).val < 1 := (i 0).isLt
  have h1 : (i 1).val < 32 := (i 1).isLt
  intro a
  match a with
  | ⟨0, _⟩ =>
    show win2_7.index t (0 : Fin 2) * win2_7.size 0 ≤ (i 0).val ∧ (i 0).val < win2_7.index t (0 : Fin 2) * win2_7.size 0 + win2_7.xsize (grid2.coords t) 0
    rw [e0, x0]; omega
  | ⟨1, _⟩ =>
    show win2_7.index t (1 : Fin 2) * win2_7.size 1 ≤ (i 1).val ∧ (i 1).val < win2_7.index t (1 : Fin 2) * win2_7.size 1 + win2_7.xsize (grid2.coords t) 1
    rw [e1, x1]; omega

end Blocks

end Cert.KernelIdeal.Hand

end
-- ==== Proof.KI.GcPieces2.lean ====
import proofs.«154965_j36919538876772_1_alg».proof.Proof.KI.Gc2
import Idealize.ShloMosaic.Lib.Pipeline.Value
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S128x32 .f32) (harg5 : arg5.IsWhole) (arg6 : Memref sig .tc .vmem S5000x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole)

theorem val2_A_5 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) :
    out2_A_5 c i arg1 harg1 arg2 harg2 arg3 harg3 arg4 harg4 arg5 harg5 arg6 harg6 arg7 harg7 arg8 harg8 arg9 harg9 arg10 harg10 hc0 hc1 x0 x1 x2 x3 x4 = k2_pay4 x0 x2 x3 x1 x4 := by
  unfold out2_A_5
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_unit_zero hz2]
  simp only [View.readAt_eq_ld, harg1.read_unread, harg2.read_unread, harg3.read_unread, harg4.read_unread, harg5.read_unread, View.ld_unit_zero (S := S5000x128) hz2, View.ld_unit_zero (S := S128x32) hz2, View.ld_unit_zero (S := S1x32) hz2, View.readCov_unit_zero (S := S1x32) _ hz2]

theorem val2_A_s0 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) :
    sout2_A_0 c i arg1 harg1 arg2 harg2 arg3 harg3 arg4 harg4 arg5 harg5 arg6 harg6 arg7 harg7 arg8 harg8 arg9 harg9 arg10 harg10 hc0 hc1 x0 x1 x2 x3 x4 = k2_pay5 x0 x2 x3 x1 x4 (k2_pay2 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x32) hz2, View.readCov_unit_zero (S := S1x32) _ hz2]
  simp only [View.readAt_eq_ld, harg1.read_unread, harg2.read_unread, harg3.read_unread, harg4.read_unread, harg5.read_unread, View.ld_unit_zero (S := S5000x128) hz2, View.ld_unit_zero (S := S128x32) hz2, View.ld_unit_zero (S := S1x32) hz2, View.readCov_unit_zero (S := S1x32) _ hz2]

theorem val2_A_s1 (hc0 : cond2_0 i) (hc1 : ¬cond2_1 i)
    (x0 : Vec F S5000x128 .f32) (x1 : Vec F S5000x128 .f32) (x2 : Vec F S128x32 .f32) (x3 : Vec F S1x32 .f32) (x4 : Vec F S128x32 .f32) :
    sout2_A_1 c i arg1 harg1 arg2 harg2 arg3 harg3 arg4 harg4 arg5 harg5 arg6 harg6 arg7 harg7 arg8 harg8 arg9 harg9 arg10 harg10 hc0 hc1 x0 x1 x2 x3 x4 = k2_pay1 (k2_pay6 x0 x2 x3 x1 x4 (k2_pay3 (F := F))) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x32) hz2, View.readCov_unit_zero (S := S1x32) _ hz2]
  simp only [View.readAt_eq_ld, harg1.read_unread, harg2.read_unread, harg3.read_unread, harg4.read_unread, harg5.read_unread, View.ld_unit_zero (S := S5000x128) hz2, View.ld_unit_zero (S := S128x32) hz2, View.ld_unit_zero (S := S1x32) hz2, View.readCov_unit_zero (S := S1x32) _ hz2]

theorem val2_B_5 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    out2_B_5 c i arg1 harg1 arg2 harg2 arg3 harg3 arg4 harg4 arg5 harg5 arg6 harg6 arg7 harg7 arg8 harg8 arg9 harg9 arg10 harg10 hc0 hc1 x0 x1 x2 x3 x4 xs0 xs1 = k2_pay4 x0 x2 x3 x1 x4 := by
  unfold out2_B_5
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_B_s0 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    sout2_B_0 c i arg1 harg1 arg2 harg2 arg3 harg3 arg4 harg4 arg5 harg5 arg6 harg6 arg7 harg7 arg8 harg8 arg9 harg9 arg10 harg10 hc0 hc1 x0 x1 x2 x3 x4 xs0 xs1 = k2_pay5 x0 x2 x3 x1 x4 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_B_s1 (hc0 : ¬cond2_0 i) (hc1 : ¬cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    sout2_B_1 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay6 x0 x2 x3 x1 x4 xs1) := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_C_5 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    out2_C_5 c i arg1 harg1 arg2 harg2 arg3 harg3 arg4 harg4 arg5 harg5 arg6 harg6 arg7 harg7 arg8 harg8 arg9 harg9 arg10 harg10 hc0 hc1 x0 x1 x2 x3 x4 xs0 xs1 = k2_pay4 x0 x2 x3 x1 x4 := by
  unfold out2_C_5
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_C_s0 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    sout2_C_0 c i arg1 harg1 arg2 harg2 arg3 harg3 arg4 harg4 arg5 harg5 arg6 harg6 arg7 harg7 arg8 harg8 arg9 harg9 arg10 harg10 hc0 hc1 x0 x1 x2 x3 x4 xs0 xs1 = k2_pay5 x0 x2 x3 x1 x4 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_C_s1 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    sout2_C_1 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay6 x0 x2 x3 x1 x4 xs1) := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_C_6 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    out2_C_6 c i arg1 harg1 arg2 harg2 arg3 harg3 arg4 harg4 arg5 harg5 arg6 harg6 arg7 harg7 arg8 harg8 arg9 harg9 arg10 harg10 hc0 hc1 x0 x1 x2 x3 x4 xs0 xs1 = k2_pay5 x0 x2 x3 x1 x4 xs0 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

theorem val2_C_7 (hc0 : ¬cond2_0 i) (hc1 : cond2_1 i)
    (x0 : Vec F S5000x128 .f32) (x1 : Vec F S5000x128 .f32) (x2 : Vec F S128x32 .f32) (x3 : Vec F S1x32 .f32) (x4 : Vec F S128x32 .f32) (xs0 : Vec F S1x32 .f32) (xs1 : Vec F S1x32 .f32) :
    out2_C_7 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay6 x0 x2 x3 x1 x4 xs1) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero hz2]
  simp only [View.readAt_eq_ld, harg1.read_unread, harg2.read_unread, harg3.read_unread, harg4.read_unread, harg5.read_unread, harg9.read_unread, harg10.read_unread, View.ld_unit_zero (S := S5000x128) hz2, View.ld_unit_zero (S := S128x32) hz2, View.ld_unit_zero (S := S1x32) hz2, View.readCov_unit_zero (S := S1x32) _ hz2]

end

end Cert.KernelIdeal.Hand

end
-- ==== Proof.KI.GcVal2.lean ====
import proofs.«154965_j36919538876772_1_alg».proof.Proof.KI.Gc2
import proofs.«154965_j36919538876772_1_alg».proof.Proof.KI.GcVal2a
import proofs.«154965_j36919538876772_1_alg».proof.Proof.KI.GcPieces2
import proofs.«154965_j36919538876772_1_alg».proof.Proof.Spec.Layer
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.Tactic
open Idealize.SL.Sem
open Idealize.ShloMosaic.Pipeline (Dat)
open scoped BigOperators

theorem comp5_1 {α β γ δ ε : Type} {p : (α × β × γ) × (δ × ε)} {a : α} {b : β} {g : γ} {d : δ} {e : ε}
    (h : p = ((a, b, g), (d, e))) : p.1.1 = a := by subst h; rfl
theorem comp5_2 {α β γ δ ε : Type} {p : (α × β × γ) × (δ × ε)} {a : α} {b : β} {g : γ} {d : δ} {e : ε}
    (h : p = ((a, b, g), (d, e))) : p.1.2.1 = b := by subst h; rfl
theorem comp5_3 {α β γ δ ε : Type} {p : (α × β × γ) × (δ × ε)} {a : α} {b : β} {g : γ} {d : δ} {e : ε}
    (h : p = ((a, b, g), (d, e))) : p.1.2.2 = g := by subst h; rfl
theorem comp5_4 {α β γ δ ε : Type} {p : (α × β × γ) × (δ × ε)} {a : α} {b : β} {g : γ} {d : δ} {e : ε}
    (h : p = ((a, b, g), (d, e))) : p.2.1 = d := by subst h; rfl
theorem comp5_5 {α β γ δ ε : Type} {p : (α × β × γ) × (δ × ε)} {a : α} {b : β} {g : γ} {d : δ} {e : ε}
    (h : p = ((a, b, g), (d, e))) : p.2.2 = e := by subst h; rfl

section Values
variable (V : (c : Dev nD) → (b : Ref sig .tc) → Buf (Elt Ideal) ((c : Thread nD τ).loc b)) (c : Dev nD)

abbrev hpre2 : Mat 100000 32 :=
  dense (V c main_v28) (V c main_v18) (V c main_arg7) (V c main_arg9) (fun j => V c main_v29 (ix2 0 j))

abbrev aggArr2 : Mat 100000 128 := V c main_v28
abbrev xArr2 : Mat 100000 128 := V c main_v18
abbrev wrArr2 : Mat 128 32 := V c main_arg7
abbrev woArr2 : Mat 128 32 := V c main_arg9
abbrev bArr2 : Mat 1 32 := V c main_v29

abbrev aggBlk2 (t : Fin cfg2.N) : Vec Ideal S5000x128 .f32 := iblk2 V c 0 t
abbrev xBlk2 (t : Fin cfg2.N) : Vec Ideal S5000x128 .f32 := iblk2 V c 1 t
abbrev wrBlk2 (t : Fin cfg2.N) : Vec Ideal S128x32 .f32 := iblk2 V c 2 t
abbrev bBlk2 (t : Fin cfg2.N) : Vec Ideal S1x32 .f32 := iblk2 V c 3 t
abbrev woBlk2 (t : Fin cfg2.N) : Vec Ideal S128x32 .f32 := iblk2 V c 4 t

def hBlk2 (t : Fin cfg2.N) : Vec Ideal S5000x32 .f32 :=
  k2_pay4 (aggBlk2 V c t) (wrBlk2 V c t) (bBlk2 V c t) (xBlk2 V c t) (woBlk2 V c t)

theorem hBlk2_apply (t : Fin cfg2.N) (q : Fin 5000) (j : Fin 32) :
    hBlk2 V c t (ix2 q j) = hpre2 V c (ix2 ⟨5000 * t.val + q.val, row2_lt t q⟩ j) := by
  unfold hBlk2
  refine (k2pay4_apply (aggBlk2 V c t) (wrBlk2 V c t) (bBlk2 V c t) (xBlk2 V c t) (woBlk2 V c t) q j).trans ?_
  have e0 : ∀ k, aggBlk2 V c t (ix2 q k) = aggArr2 V c (ix2 ⟨5000 * t.val + q.val, row2_lt t q⟩ k) := fun k => read_blk2_0 V c t q k
  have e1 : ∀ k, xBlk2 V c t (ix2 q k) = xArr2 V c (ix2 ⟨5000 * t.val + q.val, row2_lt t q⟩ k) := fun k => read_blk2_1 V c t q k
  have e2 : wrBlk2 V c t = wrArr2 V c := read_blk2_2 V c t
  have e3 : bBlk2 V c t = bArr2 V c := read_blk2_3 V c t
  have e4 : woBlk2 V c t = woArr2 V c := read_blk2_4 V c t
  show _ = ((∑ k : Fin 128, aggArr2 V c (ix2 ⟨5000 * t.val + q.val, row2_lt t q⟩ k) * wrArr2 V c (ix2 k j)) + bArr2 V c (ix2 0 j))
      + ∑ k : Fin 128, xArr2 V c (ix2 ⟨5000 * t.val + q.val, row2_lt t q⟩ k) * woArr2 V c (ix2 k j)
  rw [e2, e3, e4]
  simp only [e0, e1]

def tile2 (p : Mat 100000 32) (t : ℕ) (j : Fin 32) : EReal :=
  if h : t < 20 then ∑ q : Fin 5000, p (ix2 ⟨5000 * t + q.val, by have := q.isLt; omega⟩ j) else 0

def tileSq2 (p : Mat 100000 32) (t : ℕ) (j : Fin 32) : EReal :=
  if h : t < 20 then ∑ q : Fin 5000, p (ix2 ⟨5000 * t + q.val, by have := q.isLt; omega⟩ j) * p (ix2 ⟨5000 * t + q.val, by have := q.isLt; omega⟩ j) else 0

theorem tile2_total (p : Mat 100000 32) (j : Fin 32) : ∑ t ∈ Finset.range 20, tile2 p t j = colSum p j := by
  unfold colSum
  rw [Spec.sum_tiles (fun r => p (ix2 r j)), Finset.sum_range]
  exact Finset.sum_congr rfl fun t _ => by unfold tile2; rw [dif_pos t.isLt]

theorem tileSq2_total (p : Mat 100000 32) (j : Fin 32) : ∑ t ∈ Finset.range 20, tileSq2 p t j = colSumSq p j := by
  unfold colSumSq
  rw [Spec.sum_tiles (fun r => p (ix2 r j) * p (ix2 r j)), Finset.sum_range]
  exact Finset.sum_congr rfl fun t _ => by unfold tileSq2; rw [dif_pos t.isLt]

theorem colsum_hBlk2 (t : Fin cfg2.N) (j : Fin 32) : ∑ q : Fin 5000, hBlk2 V c t (ix2 q j) = tile2 (hpre2 V c) t.val j := by
  unfold tile2
  rw [dif_pos (by have := t.isLt; have := N2; omega)]
  exact Finset.sum_congr rfl fun q _ => hBlk2_apply V c t q j

theorem colsumsq_hBlk2 (t : Fin cfg2.N) (j : Fin 32) :
    ∑ q : Fin 5000, hBlk2 V c t (ix2 q j) * hBlk2 V c t (ix2 q j) = tileSq2 (hpre2 V c) t.val j := by
  unfold tileSq2
  rw [dif_pos (by have := t.isLt; have := N2; omega)]
  exact Finset.sum_congr rfl fun q _ => by rw [hBlk2_apply V c t q j]

theorem o2_5_A (t : Fin cfg2.N) (h0 : t.val % 20 = 0) (h1 : ¬t.val % 20 = 19) : (outsAt2 V c t.val t.isLt).1.1 = hBlk2 V c t := by
  unfold hBlk2
  exact (comp5_1 (outsAt2_A V c t h0 h1)).trans
    (val2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t))

theorem s2_0_A (t : Fin cfg2.N) (h0 : t.val % 20 = 0) (h1 : ¬t.val % 20 = 19) (j : Fin 32) :
    (outsAt2 V c t.val t.isLt).2.1 (ix2 0 j) = 0 + tile2 (hpre2 V c) t.val j := by
  have e : (outsAt2 V c t.val t.isLt).2.1 = k2_pay5 (aggBlk2 V c t) (wrBlk2 V c t) (bBlk2 V c t) (xBlk2 V c t) (woBlk2 V c t) (k2_pay2 (F := Ideal)) :=
    (comp5_4 (outsAt2_A V c t h0 h1)).trans
      (val2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t))
  rw [e]
  refine (k2pay5_apply (aggBlk2 V c t) (wrBlk2 V c t) (bBlk2 V c t) (xBlk2 V c t) (woBlk2 V c t) (k2_pay2 (F := Ideal)) j).trans ?_
  rw [k2pay2_apply]
  show _ + ∑ q : Fin 5000, hBlk2 V c t (ix2 q j) = _
  rw [colsum_hBlk2]

theorem s2_1_A (t : Fin cfg2.N) (h0 : t.val % 20 = 0) (h1 : ¬t.val % 20 = 19) (j : Fin 32) :
    (outsAt2 V c t.val t.isLt).2.2 (ix2 0 j) = 0 + tileSq2 (hpre2 V c) t.val j := by
  have e : (outsAt2 V c t.val t.isLt).2.2 = k2_pay1 (k2_pay6 (aggBlk2 V c t) (wrBlk2 V c t) (bBlk2 V c t) (xBlk2 V c t) (woBlk2 V c t) (k2_pay3 (F := Ideal))) :=
    (comp5_5 (outsAt2_A V c t h0 h1)).trans
      (val2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t))
  rw [e]
  refine (k2pay6_apply (aggBlk2 V c t) (wrBlk2 V c t) (bBlk2 V c t) (xBlk2 V c t) (woBlk2 V c t) (k2_pay3 (F := Ideal)) j).trans ?_
  rw [k2pay3_apply]
  show _ + ∑ q : Fin 5000, hBlk2 V c t (ix2 q j) * hBlk2 V c t (ix2 q j) = _
  rw [colsumsq_hBlk2]

theorem o2_5_B (t : Fin cfg2.N) (h0 : ¬t.val % 20 = 0) (h1 : ¬t.val % 20 = 19) : (outsAt2 V c t.val t.isLt).1.1 = hBlk2 V c t := by
  unfold hBlk2
  exact (comp5_1 (outsAt2_B V c t h0 h1)).trans
    (val2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)

theorem s2_0_B (t : Fin cfg2.N) (h0 : ¬t.val % 20 = 0) (h1 : ¬t.val % 20 = 19) (j : Fin 32) :
    (outsAt2 V c t.val t.isLt).2.1 (ix2 0 j) = (outsAt2 V c (t.val - 1) (Nat.lt_of_le_of_lt (Nat.sub_le _ _) t.isLt)).2.1 (ix2 0 j) + tile2 (hpre2 V c) t.val j := by
  have e : (outsAt2 V c t.val t.isLt).2.1 = k2_pay5 (aggBlk2 V c t) (wrBlk2 V c t) (bBlk2 V c t) (xBlk2 V c t) (woBlk2 V c t) (outsAt2 V c (t.val - 1) (Nat.lt_of_le_of_lt (Nat.sub_le _ _) t.isLt)).2.1 :=
    (comp5_4 (outsAt2_B V c t h0 h1)).trans
      (val2_B_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
  rw [e]
  refine (k2pay5_apply (aggBlk2 V c t) (wrBlk2 V c t) (bBlk2 V c t) (xBlk2 V c t) (woBlk2 V c t) (outsAt2 V c (t.val - 1) (Nat.lt_of_le_of_lt (Nat.sub_le _ _) t.isLt)).2.1 j).trans ?_
  show _ + ∑ q : Fin 5000, hBlk2 V c t (ix2 q j) = _
  rw [colsum_hBlk2]

theorem s2_1_B (t : Fin cfg2.N) (h0 : ¬t.val % 20 = 0) (h1 : ¬t.val % 20 = 19) (j : Fin 32) :
    (outsAt2 V c t.val t.isLt).2.2 (ix2 0 j) = (outsAt2 V c (t.val - 1) (Nat.lt_of_le_of_lt (Nat.sub_le _ _) t.isLt)).2.2 (ix2 0 j) + tileSq2 (hpre2 V c) t.val j := by
  have e : (outsAt2 V c t.val t.isLt).2.2 = k2_pay1 (k2_pay6 (aggBlk2 V c t) (wrBlk2 V c t) (bBlk2 V c t) (xBlk2 V c t) (woBlk2 V c t) (outsAt2 V c (t.val - 1) (Nat.lt_of_le_of_lt (Nat.sub_le _ _) t.isLt)).2.2) :=
    (comp5_5 (outsAt2_B V c t h0 h1)).trans
      (val2_B_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
  rw [e]
  refine (k2pay6_apply (aggBlk2 V c t) (wrBlk2 V c t) (bBlk2 V c t) (xBlk2 V c t) (woBlk2 V c t) (outsAt2 V c (t.val - 1) (Nat.lt_of_le_of_lt (Nat.sub_le _ _) t.isLt)).2.2 j).trans ?_
  show _ + ∑ q : Fin 5000, hBlk2 V c t (ix2 q j) * hBlk2 V c t (ix2 q j) = _
  rw [colsumsq_hBlk2]

theorem o2_5_C (t : Fin cfg2.N) (h0 : ¬t.val % 20 = 0) (h1 : t.val % 20 = 19) : (outsAt2 V c t.val t.isLt).1.1 = hBlk2 V c t := by
  unfold hBlk2
  exact (comp5_1 (outsAt2_C V c t h0 h1)).trans
    (val2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)

theorem s2_0_C (t : Fin cfg2.N) (h0 : ¬t.val % 20 = 0) (h1 : t.val % 20 = 19) (j : Fin 32) :
    (outsAt2 V c t.val t.isLt).2.1 (ix2 0 j) = (outsAt2 V c (t.val - 1) (Nat.lt_of_le_of_lt (Nat.sub_le _ _) t.isLt)).2.1 (ix2 0 j) + tile2 (hpre2 V c) t.val j := by
  have e : (outsAt2 V c t.val t.isLt).2.1 = k2_pay5 (aggBlk2 V c t) (wrBlk2 V c t) (bBlk2 V c t) (xBlk2 V c t) (woBlk2 V c t) (outsAt2 V c (t.val - 1) (Nat.lt_of_le_of_lt (Nat.sub_le _ _) t.isLt)).2.1 :=
    (comp5_4 (outsAt2_C V c t h0 h1)).trans
      (val2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
  rw [e]
  refine (k2pay5_apply (aggBlk2 V c t) (wrBlk2 V c t) (bBlk2 V c t) (xBlk2 V c t) (woBlk2 V c t) (outsAt2 V c (t.val - 1) (Nat.lt_of_le_of_lt (Nat.sub_le _ _) t.isLt)).2.1 j).trans ?_
  show _ + ∑ q : Fin 5000, hBlk2 V c t (ix2 q j) = _
  rw [colsum_hBlk2]

theorem s2_1_C (t : Fin cfg2.N) (h0 : ¬t.val % 20 = 0) (h1 : t.val % 20 = 19) (j : Fin 32) :
    (outsAt2 V c t.val t.isLt).2.2 (ix2 0 j) = (outsAt2 V c (t.val - 1) (Nat.lt_of_le_of_lt (Nat.sub_le _ _) t.isLt)).2.2 (ix2 0 j) + tileSq2 (hpre2 V c) t.val j := by
  have e : (outsAt2 V c t.val t.isLt).2.2 = k2_pay1 (k2_pay6 (aggBlk2 V c t) (wrBlk2 V c t) (bBlk2 V c t) (xBlk2 V c t) (woBlk2 V c t) (outsAt2 V c (t.val - 1) (Nat.lt_of_le_of_lt (Nat.sub_le _ _) t.isLt)).2.2) :=
    (comp5_5 (outsAt2_C V c t h0 h1)).trans
      (val2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
  rw [e]
  refine (k2pay6_apply (aggBlk2 V c t) (wrBlk2 V c t) (bBlk2 V c t) (xBlk2 V c t) (woBlk2 V c t) (outsAt2 V c (t.val - 1) (Nat.lt_of_le_of_lt (Nat.sub_le _ _) t.isLt)).2.2 j).trans ?_
  show _ + ∑ q : Fin 5000, hBlk2 V c t (ix2 q j) * hBlk2 V c t (ix2 q j) = _
  rw [colsumsq_hBlk2]

theorem o2_6_C (t : Fin cfg2.N) (h0 : ¬t.val % 20 = 0) (h1 : t.val % 20 = 19) : (outsAt2 V c t.val t.isLt).1.2.1 = (outsAt2 V c t.val t.isLt).2.1 :=
  ((comp5_2 (outsAt2_C V c t h0 h1)).trans
    (val2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)).trans
  ((comp5_4 (outsAt2_C V c t h0 h1)).trans
    (val2_C_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)).symm

theorem o2_7_C (t : Fin cfg2.N) (h0 : ¬t.val % 20 = 0) (h1 : t.val % 20 = 19) : (outsAt2 V c t.val t.isLt).1.2.2 = (outsAt2 V c t.val t.isLt).2.2 :=
  ((comp5_3 (outsAt2_C V c t h0 h1)).trans
    (val2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)).trans
  ((comp5_5 (outsAt2_C V c t h0 h1)).trans
    (val2_C_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)).symm

theorem o2_5_eq (t : Fin cfg2.N) : (outsAt2 V c t.val t.isLt).1.1 = hBlk2 V c t := by
  by_cases h0 : t.val % 20 = 0
  · exact o2_5_A V c t h0 (by omega)
  · by_cases h1 : t.val % 20 = 19
    · exact o2_5_C V c t h0 h1
    · exact o2_5_B V c t h0 h1

theorem acc2_0_eq : ∀ (n : ℕ) (hn : n < cfg2.N) (j : Fin 32),
    (outsAt2 V c n hn).2.1 (ix2 0 j) = ∑ t' ∈ Finset.range (n + 1), tile2 (hpre2 V c) t' j
  | 0, hn, j => by
    rw [Finset.sum_range_one, ← zero_add (tile2 (hpre2 V c) 0 j)]
    exact s2_0_A V c ⟨0, hn⟩ rfl (by dsimp only; omega) j
  | n + 1, hn, j => by
    have hN := N2
    have h0 : ¬(⟨n + 1, hn⟩ : Fin cfg2.N).val % 20 = 0 := by dsimp only; omega
    rw [Finset.sum_range_succ _ (n + 1), ← acc2_0_eq n (Nat.lt_of_succ_lt hn) j]
    by_cases h1 : (⟨n + 1, hn⟩ : Fin cfg2.N).val % 20 = 19
    · exact s2_0_C V c ⟨n + 1, hn⟩ h0 h1 j
    · exact s2_0_B V c ⟨n + 1, hn⟩ h0 h1 j

theorem acc2_1_eq : ∀ (n : ℕ) (hn : n < cfg2.N) (j : Fin 32),
    (outsAt2 V c n hn).2.2 (ix2 0 j) = ∑ t' ∈ Finset.range (n + 1), tileSq2 (hpre2 V c) t' j
  | 0, hn, j => by
    rw [Finset.sum_range_one, ← zero_add (tileSq2 (hpre2 V c) 0 j)]
    exact s2_1_A V c ⟨0, hn⟩ rfl (by dsimp only; omega) j
  | n + 1, hn, j => by
    have hN := N2
    have h0 : ¬(⟨n + 1, hn⟩ : Fin cfg2.N).val % 20 = 0 := by dsimp only; omega
    rw [Finset.sum_range_succ _ (n + 1), ← acc2_1_eq n (Nat.lt_of_succ_lt hn) j]
    by_cases h1 : (⟨n + 1, hn⟩ : Fin cfg2.N).val % 20 = 19
    · exact s2_1_C V c ⟨n + 1, hn⟩ h0 h1 j
    · exact s2_1_B V c ⟨n + 1, hn⟩ h0 h1 j

theorem flushed2_5 (t : Fin cfg2.N) :
    (dat2 V c).flushed 5 t = ((cfg2.win 5).blk t).view.read (Elt Ideal) (hpre2 V c : Buf (Elt Ideal) ((c : Thread nD τ).loc main_v30_0)) := by
  show (cfg2.win 5).cut (grid2.coords t) ((dat2 V c).after 5 t) = _
  rw [after2_5, o2_5_eq]
  funext y
  refine Eq.trans ?_ (read_blk2_5 (hpre2 V c) t y).symm
  obtain ⟨q, j, rfl⟩ : ∃ q j, y = ix2 q j := ⟨y 0, y 1, eq_ix2 y⟩
  exact hBlk2_apply V c t q j

theorem arr2_5 : ((dat2 (F := Ideal) V c).arrAt 5 cfg2.N : S100000x32.Idx → EReal) = hpre2 V c :=
  (dat2 V c).arrAt_eq_of_cover 5 (hpre2 V c : Buf (Elt Ideal) ((c : Thread nD τ).loc main_v30_0)) (fun t _ => flushed2_5 V c t) fun i =>
    have hi : (i 0).val < 100000 := (i 0).isLt
    ⟨⟨(i 0).val / 5000, by rw [N2]; omega⟩, flush2_5 _, (mem_blk2_5 _ i).mpr (by dsimp only; omega)⟩

abbrev tLast2 : Fin cfg2.N := ⟨19, by rw [N2]; decide⟩

abbrev sumRow2 : S1x32.Idx → EReal := fun i => colSum (hpre2 V c) (i 1)

abbrev sqRow2 : S1x32.Idx → EReal := fun i => colSumSq (hpre2 V c) (i 1)

theorem flushed2_6 (t : Fin cfg2.N) (hf : (cfg2.win 6).flush t = true) :
    (dat2 V c).flushed 6 t = ((cfg2.win 6).blk t).view.read (Elt Ideal) (sumRow2 V c : Buf (Elt Ideal) ((c : Thread nD τ).loc main_v30_1)) := by
  have hN := N2
  have h19 : t.val % 20 = 19 := (flush2_6 t).mp hf
  have h0 : ¬t.val % 20 = 0 := by omega
  have ht : t.val = 19 := by have := t.isLt; omega
  show (cfg2.win 6).cut (grid2.coords t) ((dat2 V c).after 6 t) = _
  rw [after2_6, read_blk2_6, o2_6_C V c t h0 h19]
  funext y
  obtain ⟨a, j, rfl⟩ : ∃ a j, y = ix2 a j := ⟨y 0, y 1, eq_ix2 y⟩
  obtain rfl : a = 0 := Subsingleton.elim _ _
  refine (acc2_0_eq V c t.val t.isLt j).trans ?_
  rw [ht]
  exact tile2_total (hpre2 V c) j

theorem flushed2_7 (t : Fin cfg2.N) (hf : (cfg2.win 7).flush t = true) :
    (dat2 V c).flushed 7 t = ((cfg2.win 7).blk t).view.read (Elt Ideal) (sqRow2 V c : Buf (Elt Ideal) ((c : Thread nD τ).loc main_v30_2)) := by
  have hN := N2
  have h19 : t.val % 20 = 19 := (flush2_7 t).mp hf
  have h0 : ¬t.val % 20 = 0 := by omega
  have ht : t.val = 19 := by have := t.isLt; omega
  show (cfg2.win 7).cut (grid2.coords t) ((dat2 V c).after 7 t) = _
  rw [after2_7, read_blk2_7, o2_7_C V c t h0 h19]
  funext y
  obtain ⟨a, j, rfl⟩ : ∃ a j, y = ix2 a j := ⟨y 0, y 1, eq_ix2 y⟩
  obtain rfl : a = 0 := Subsingleton.elim _ _
  refine (acc2_1_eq V c t.val t.isLt j).trans ?_
  rw [ht]
  exact tileSq2_total (hpre2 V c) j

theorem arr2_6 : ∀ j : Fin 32, (dat2 (F := Ideal) V c).arrAt 6 cfg2.N (ix2 0 j) = colSum (hpre2 V c) j := fun j =>
  congrFun ((dat2 V c).arrAt_eq_of_cover 6 (sumRow2 V c : Buf (Elt Ideal) ((c : Thread nD τ).loc main_v30_1)) (flushed2_6 V c) fun i =>
    ⟨tLast2, (flush2_6 tLast2).mpr rfl, mem_blk2_6 tLast2 i⟩) (ix2 0 j)

theorem arr2_7 : ∀ j : Fin 32, (dat2 (F := Ideal) V c).arrAt 7 cfg2.N (ix2 0 j) = colSumSq (hpre2 V c) j := fun j =>
  congrFun ((dat2 V c).arrAt_eq_of_cover 7 (sqRow2 V c : Buf (Elt Ideal) ((c : Thread nD τ).loc main_v30_2)) (flushed2_7 V c) fun i =>
    ⟨tLast2, (flush2_7 tLast2).mpr rfl, mem_blk2_7 tLast2 i⟩) (ix2 0 j)

end Values

end Cert.KernelIdeal.Hand

end
-- ==== Proof.KI.BnVal3.lean ====
import proofs.«154965_j36919538876772_1_alg».proof.Proof.KI.Bn3
import proofs.«154965_j36919538876772_1_alg».proof.Proof.Spec.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Spec (nRows eps zeroLit)

variable (V : (c : Dev nD) → (b : Ref sig .tc) → Buf (Elt Ideal) ((c : Thread nD τ).loc b))

private theorem zeroOffsets : (![0, 0] : Fin 2 → Nat) = fun _ => 0 := funext fun a => by fin_cases a <;> rfl

private theorem rsqrtAt {s : Shape} {φ : FTy} (a : FVec Ideal s φ) (i : s.Idx) : rsqrt a i = Ideal.rsqrt (a i) := rfl

theorem normalised3 (x0 : Vec Ideal S5000x32 .f32) (x1 x2 x3 x4 : Vec Ideal S1x32 .f32) (q : Fin 5000) (j : Fin 32) :
    (out3_5 x0 x1 x2 x3 x4 (ix2 q j) : EReal)
      = max ((((x0 (ix2 q j) : EReal) - Ideal.div (x3 (ix2 0 j)) nRows)
          * Ideal.rsqrt ((Ideal.div (x4 (ix2 0 j)) nRows - Ideal.div (x3 (ix2 0 j)) nRows * Ideal.div (x3 (ix2 0 j)) nRows) + eps))
          * x1 (ix2 0 j) + x2 (ix2 0 j)) zeroLit := by
  unfold out3_5
  rw [View.canon_unit_zero zeroOffsets]
  simp only [View.ld_unit_zero (S := S5000x32) zeroOffsets, View.ld_unit_zero (S := S1x32) zeroOffsets]
  unfold k3_pay1
  simp only [shapeCast_self]
  simp only [maximumf_apply, addf_apply, mulf_apply, subf_apply, broadcastTo_1b_ab_apply, rsqrtAt, divf_apply, broadcast_apply]
  rfl

theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem blockRows3 (c : Dev nD) (t : Fin cfg3.N) (q : Fin 5000) (j : Fin 32) (i : S100000x32.Idx)
    (hi0 : (i 0).val = 5000 * t.val + q.val) (hi1 : (i 1).val = j.val) :
    (iblk3 V c 0 t : Vec Ideal S5000x32 .f32) (ix2 q j) = (V c main_v30_0 : S100000x32.Idx → EReal) i := by
  obtain ⟨e0, e1, -⟩ := blockIndex3 t
  unfold iblk3
  rw [View.read_apply]
  show V c main_v30_0 _ = V c main_v30_0 _
  congr 1
  funext a
  apply Fin.ext
  match a with
  | ⟨0, _⟩ => show win3_0.index t 0 * 5000 + 1 * q.val = (i 0).val; rw [e0, hi0]; omega
  | ⟨1, _⟩ => show win3_0.index t 1 * 32 + 1 * j.val = (i 1).val; rw [e1, hi1]; omega

theorem rowBlock3_1 (c : Dev nD) (t : Fin cfg3.N) (j : Fin 32) :
    (iblk3 V c 1 t : Vec Ideal S1x32 .f32) (ix2 0 j) = (V c main_v31 : S1x32.Idx → EReal) (ix2 0 j) := by
  obtain ⟨-, -, e0, e1, -⟩ := blockIndex3 t
  unfold iblk3
  rw [View.read_apply]
  show V c main_v31 _ = V c main_v31 _
  congr 1
  funext a
  apply Fin.ext
  match a with
  | ⟨0, _⟩ => show win3_1.index t 0 * 1 + 1 * 0 = 0; rw [e0]
  | ⟨1, _⟩ => show win3_1.index t 1 * 32 + 1 * j.val = j.val; rw [e1]; omega

theorem rowBlock3_2 (c : Dev nD) (t : Fin cfg3.N) (j : Fin 32) :
    (iblk3 V c 2 t : Vec Ideal S1x32 .f32) (ix2 0 j) = (V c main_v32 : S1x32.Idx → EReal) (ix2 0 j) := by
  obtain ⟨-, -, -, -, e0, e1, -⟩ := blockIndex3 t
  unfold iblk3
  rw [View.read_apply]
  show V c main_v32 _ = V c main_v32 _
  congr 1
  funext a
  apply Fin.ext
  match a with
  | ⟨0, _⟩ => show win3_2.index t 0 * 1 + 1 * 0 = 0; rw [e0]
  | ⟨1, _⟩ => show win3_2.index t 1 * 32 + 1 * j.val = j.val; rw [e1]; omega

theorem rowBlock3_3 (c : Dev nD) (t : Fin cfg3.N) (j : Fin 32) :
    (iblk3 V c 3 t : Vec Ideal S1x32 .f32) (ix2 0 j) = (V c main_v30_1 : S1x32.Idx → EReal) (ix2 0 j) := by
  obtain ⟨-, -, -, -, -, -, e0, e1, -⟩ := blockIndex3 t
  unfold iblk3
  rw [View.read_apply]
  show V c main_v30_1 _ = V c main_v30_1 _
  congr 1
  funext a
  apply Fin.ext
  match a with
  | ⟨0, _⟩ => show win3_3.index t 0 * 1 + 1 * 0 = 0; rw [e0]
  | ⟨1, _⟩ => show win3_3.index t 1 * 32 + 1 * j.val = j.val; rw [e1]; omega

theorem rowBlock3_4 (c : Dev nD) (t : Fin cfg3.N) (j : Fin 32) :
    (iblk3 V c 4 t : Vec Ideal S1x32 .f32) (ix2 0 j) = (V c main_v30_2 : S1x32.Idx → EReal) (ix2 0 j) := by
  obtain ⟨-, -, -, -, -, -, -, -, e0, e1, -⟩ := blockIndex3 t
  unfold iblk3
  rw [View.read_apply]
  show V c main_v30_2 _ = V c main_v30_2 _
  congr 1
  funext a
  apply Fin.ext
  match a with
  | ⟨0, _⟩ => show win3_4.index t 0 * 1 + 1 * 0 = 0; rw [e0]
  | ⟨1, _⟩ => show win3_4.index t 1 * 32 + 1 * j.val = j.val; rw [e1]; omega

theorem outEntry3 (t : Fin cfg3.N) (q : Fin 5000) (j : Fin 32) :
    ((((cfg3.win 5).blk t).view.emb (ix2 q j) : S100000x32.Idx) 0).val = 5000 * t.val + q.val
    ∧ (((cfg3.win 5).blk t).view.emb (ix2 q j) : S100000x32.Idx) 1 = j := by
  obtain ⟨-, -, -, -, -, -, -, -, -, -, e0, e1⟩ := blockIndex3 t
  refine ⟨?_, Fin.ext ?_⟩
  · show win3_5.index t 0 * 5000 + 1 * q.val = 5000 * t.val + q.val; rw [e0]; omega
  · show win3_5.index t 1 * 32 + 1 * j.val = j.val; rw [e1]; omega

def bnArr3 (c : Dev nD) : S100000x32.Idx → EReal :=
  Cert.Spec.bnSums (V c main_v30_0 : S100000x32.Idx → EReal) (fun j => (V c main_v30_1 : S1x32.Idx → EReal) (ix2 0 j)) (fun j => (V c main_v30_2 : S1x32.Idx → EReal) (ix2 0 j))
    (fun j => (V c main_v31 : S1x32.Idx → EReal) (ix2 0 j)) (fun j => (V c main_v32 : S1x32.Idx → EReal) (ix2 0 j))

theorem flushed3_5_eq (c : Dev nD) (t : Fin cfg3.N) :
    (dat3 V c).flushed 5 t = ((cfg3.win 5).blk t).view.read (Elt Ideal) (bnArr3 V c) := by
  show (cfg3.win 5).cut (grid3.coords t) ((dat3 V c).after 5 t) = _
  rw [after3_5]
  funext y
  obtain ⟨q, j, rfl⟩ : ∃ (q : Fin 5000) (j : Fin 32), y = ix2 q j := ⟨y 0, y 1, eq_ix2 (n0 := 5000) (n1 := 32) y⟩
  show (out3_5 (iblk3 V c 0 t) (iblk3 V c 1 t) (iblk3 V c 2 t) (iblk3 V c 3 t) (iblk3 V c 4 t) (ix2 q j) : EReal)
    = bnArr3 V c (((cfg3.win 5).blk t).view.emb (ix2 q j))
  obtain ⟨h0, h1⟩ := outEntry3 t q j
  generalize (((cfg3.win 5).blk t).view.emb (ix2 q j) : S100000x32.Idx) = i at h0 h1 ⊢
  refine (normalised3 _ _ _ _ _ q j).trans ?_
  rw [blockRows3 V c t q j i h0 (congrArg Fin.val h1), rowBlock3_1 V c t j, rowBlock3_2 V c t j, rowBlock3_3 V c t j, rowBlock3_4 V c t j]
  unfold bnArr3 Cert.Spec.bnSums
  rw [h1]

theorem mem_blk3_5 (t : Fin cfg3.N) (i : S100000x32.Idx) :
    i ∈ ((cfg3.win 5).blk t).view.set ↔ ∀ a : Fin 2, win3_5.index t a * S5000x32.size a ≤ (i a).val ∧ (i a).val < win3_5.index t a * S5000x32.size a + S5000x32.size a := by
  show i ∈ ((View.whole main_v33).slice (win3_5.rect t)).set ↔ _
  rw [View.set_slice_whole, Rect.mem_set_unit]
  exact Iff.rfl

theorem blocksCover3 (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ : ∃ t : Fin cfg3.N, t.val = (i 0).val / 5000 := ⟨⟨(i 0).val / 5000, by rw [show cfg3.N = 20 from N_3]; omega⟩, rfl⟩
  obtain ⟨-, -, -, -, -, -, -, -, -, -, e0, e1⟩ := blockIndex3 t
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 32 ≤ (i 1).val ∧ (i 1).val < win3_5.index t (1 : Fin 2) * 32 + 32; rw [e1]; omega

theorem arr3_5 (c : Dev nD) : ((dat3 (F := Ideal) V c).arrAt 5 cfg3.N : S100000x32.Idx → EReal)
    = Cert.Spec.bnSums (V c main_v30_0) (fun j => V c main_v30_1 (ix2 0 j)) (fun j => V c main_v30_2 (ix2 0 j)) (fun j => V c main_v31 (ix2 0 j)) (fun j => V c main_v32 (ix2 0 j)) :=
  (dat3 V c).arrAt_eq_of_cover 5 (bnArr3 V c) (fun t _ => flushed3_5_eq V c t) (blocksCover3)

end Cert.KernelIdeal.Hand

end
-- ==== Proof.KI.HostVal.lean ====
import proofs.«154965_j36919538876772_1_alg».proof.Proof.Gen.KernelIdeal.Launch
import proofs.«154965_j36919538876772_1_alg».proof.Proof.Spec.Layer
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.StableHlo Cert.Spec
open Idealize.ShloMosaic.ValueIdx

def seg' (x : S100000x128.Idx → EReal) (src dst : IVec S1600000 32) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def srcOf (e : IVec S2x1600000 32) : IVec S1600000 32 :=
  shapeCast S1600000 (extractStridedSlice S1x1600000 ![0, 0] e slices_S2x1600000_S1x1600000_0_0) shapeCasts_S1x1600000_S1600000

def dstOf (e : IVec S2x1600000 32) : IVec S1600000 32 :=
  shapeCast S1600000 (extractStridedSlice S1x1600000 ![1, 0] e slices_S2x1600000_S1x1600000_1_0) shapeCasts_S1x1600000_S1600000

def seg (x : S100000x128.Idx → EReal) (e : IVec S2x1600000 32) : S100000x128.Idx → EReal := seg' x (srcOf e) (dstOf e)

variable (W : Valuation τ sig (Elt Ideal))

theorem host0_v1 : after hostOps0 W (main_v1 : DevRef τ sig) = srcOf (W main_arg1) := by
  after_results
  rfl

theorem host0_v3 : after hostOps0 W (main_v3 : DevRef τ sig) = dstOf (W main_arg1) := by
  after_results
  rfl

theorem host0_v13 : after hostOps0 W (main_v13 : DevRef τ sig) = seg (W main_arg0) (W main_arg1) := by
  after_results
  rfl

theorem host0_v14 : after hostOps0 W (main_v14 : DevRef τ sig) = shapeCast S1x128 (W main_arg3) shapeCasts_S128_S1x128 := by
  after_results
  rfl

theorem host0_v14_apply (j : Fin 128) : after hostOps0 W (main_v14 : DevRef τ sig) (ix2 0 j) = W main_arg3 (ix1 j) := by
  rw [host0_v14]; exact shapeCast_a_1a_apply _ _ _ _

theorem host1_v16 (j : Fin 128) : after hostOps1 W (main_v16 : DevRef τ sig) (ix2 0 j) = W main_arg5 (ix1 j) := by

  have h : after hostOps1 W (main_v16 : DevRef τ sig) = shapeCast S1x128 (W main_arg5) shapeCasts_S128_S1x128 := by
    after_results
    rfl
  rw [h]; exact shapeCast_a_1a_apply _ _ _ _
theorem host1_v17 (j : Fin 128) : after hostOps1 W (main_v17 : DevRef τ sig) (ix2 0 j) = W main_arg6 (ix1 j) := by

  have h : after hostOps1 W (main_v17 : DevRef τ sig) = shapeCast S1x128 (W main_arg6) shapeCasts_S128_S1x128 := by
    after_results
    rfl
  rw [h]; exact shapeCast_a_1a_apply _ _ _ _

theorem host2_v28 : after hostOps2 W (main_v28 : DevRef τ sig) = seg' (W main_v18) (W main_v1) (W main_v3) := by
  after_results
  rfl
theorem host2_v29 (j : Fin 32) : after hostOps2 W (main_v29 : DevRef τ sig) (ix2 0 j) = W main_arg8 (ix1 j) := by

  have h : after hostOps2 W (main_v29 : DevRef τ sig) = shapeCast S1x32 (W main_arg8) shapeCasts_S32_S1x32 := by
    after_results
    rfl
  rw [h]; exact shapeCast_a_1a_apply _ _ _ _

theorem host3_v31 (j : Fin 32) : after hostOps3 W (main_v31 : DevRef τ sig) (ix2 0 j) = W main_arg10 (ix1 j) := by

  have h : after hostOps3 W (main_v31 : DevRef τ sig) = shapeCast S1x32 (W main_arg10) shapeCasts_S32_S1x32 := by
    after_results
    rfl
  rw [h]; exact shapeCast_a_1a_apply _ _ _ _
theorem host3_v32 (j : Fin 32) : after hostOps3 W (main_v32 : DevRef τ sig) (ix2 0 j) = W main_arg11 (ix1 j) := by

  have h : after hostOps3 W (main_v32 : DevRef τ sig) = shapeCast S1x32 (W main_arg11) shapeCasts_S32_S1x32 := by
    after_results
    rfl
  rw [h]; exact shapeCast_a_1a_apply _ _ _ _

private theorem isReal_scatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Host.scatterAdd (F := Ideal) (φ := .f32) d x idx upd i) := by
  show IsReal (Ideal.hostScatterAdd d x idx upd i)
  unfold Ideal.hostScatterAdd
  exact (hx i).add (IsReal.sum _ _ (fun j _ => hu j))

private theorem isReal_zeros (k : S100000x128.Idx) :
    IsReal (broadcastInDim S100000x128 ![] bcast_S_S100000x128 (constant (F := Ideal) S_ .f32 0x00000000#32) k) := by
  simp only [broadcastInDim, constant, Ideal.ofBits_def, Ideal.ofBits_zero_f32]
  exact isReal_zero

theorem isReal_seg' (x : S100000x128.Idx → EReal) (src dst : IVec S1600000 32) (hx : ∀ i, IsReal (x i)) :
    ∀ i, IsReal (seg' x src dst i) :=
  fun i => isReal_scatterAdd _ _ _ _ isReal_zeros (fun _ => hx _) i

end Cert.KernelIdeal.Hand

end
-- ==== Proof.KI.Final.lean ====
import proofs.«154965_j36919538876772_1_alg».proof.Proof.KI.Run
import proofs.«154965_j36919538876772_1_alg».proof.Proof.KI.GcVal0
import proofs.«154965_j36919538876772_1_alg».proof.Proof.KI.BnVal1
import proofs.«154965_j36919538876772_1_alg».proof.Proof.KI.GcVal2
import proofs.«154965_j36919538876772_1_alg».proof.Proof.KI.BnVal3
import proofs.«154965_j36919538876772_1_alg».proof.Proof.KI.HostVal
import proofs.«154965_j36919538876772_1_alg».proof.Proof.Spec.Layer

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

abbrev argX : S100000x128.Idx → EReal := m ((c : Thread nD τ).loc main_arg0)
abbrev argE : IVec S2x1600000 32 := m ((c : Thread nD τ).loc main_arg1)
abbrev argWr1 : S128x128.Idx → EReal := m ((c : Thread nD τ).loc main_arg2)
abbrev argB1 : S128.Idx → EReal := m ((c : Thread nD τ).loc main_arg3)
abbrev argWo1 : S128x128.Idx → EReal := m ((c : Thread nD τ).loc main_arg4)
abbrev argG1 : S128.Idx → EReal := m ((c : Thread nD τ).loc main_arg5)
abbrev argBe1 : S128.Idx → EReal := m ((c : Thread nD τ).loc main_arg6)
abbrev argWr2 : S128x32.Idx → EReal := m ((c : Thread nD τ).loc main_arg7)
abbrev argB2 : S32.Idx → EReal := m ((c : Thread nD τ).loc main_arg8)
abbrev argWo2 : S128x32.Idx → EReal := m ((c : Thread nD τ).loc main_arg9)
abbrev argG2 : S32.Idx → EReal := m ((c : Thread nD τ).loc main_arg10)
abbrev argBe2 : S32.Idx → EReal := m ((c : Thread nD τ).loc main_arg11)

def pre1 : Mat 100000 128 :=
  dense (seg (argX m c) (argE m c)) (argX m c) (argWr1 m c) (argWo1 m c) (fun j => argB1 m c (ix1 j))

def hid1 : Mat 100000 128 := bnDev (pre1 m c) (fun j => argG1 m c (ix1 j)) (fun j => argBe1 m c (ix1 j))

def pre2 : Mat 100000 32 :=
  dense (seg (hid1 m c) (argE m c)) (hid1 m c) (argWr2 m c) (argWo2 m c) (fun j => argB2 m c (ix1 j))

def hid2 : Mat 100000 32 := bnDev (pre2 m c) (fun j => argG2 m c (ix1 j)) (fun j => argBe2 m c (ix1 j))

theorem bnSums_congr {N D : ℕ} {p p' : Mat N D} {s s' ss ss' γ γ' β β' : Fin D → EReal}
    (hp : p = p') (hs : s = s') (hss : ss = ss') (hγ : γ = γ') (hβ : β = β') :
    bnSums p s ss γ β = bnSums p' s' ss' γ' β' := by
  subst hp hs hss hγ hβ; rfl

theorem V1_v13 : (V1 m ρ c main_v13 : S100000x128.Idx → EReal) = seg (argX m c) (argE m c) := by
  show W1 m ρ c (Proc.devRef .tc main_v13) = _
  exact (host0_v13 (W0 m ρ c)).trans rfl

theorem V1_v14 (j : Fin 128) : (V1 m ρ c main_v14 : S1x128.Idx → EReal) (ix2 0 j) = argB1 m c (ix1 j) := by
  show W1 m ρ c (Proc.devRef .tc main_v14) (ix2 0 j) = _
  exact (host0_v14_apply (W0 m ρ c) j).trans rfl

theorem hpre0_eq : hpre0 (V1 m ρ) c = pre1 m c := by
  unfold hpre0 pre1
  rw [V1_v13 m ρ c]
  have e0 : (V1 m ρ c main_arg0 : S100000x128.Idx → EReal) = argX m c := (keep m ρ c main_arg0 (by decide)).1
  have e2 : (V1 m ρ c main_arg2 : S128x128.Idx → EReal) = argWr1 m c := (keep m ρ c main_arg2 (by decide)).1
  have e4 : (V1 m ρ c main_arg4 : S128x128.Idx → EReal) = argWo1 m c := (keep m ρ c main_arg4 (by decide)).1
  rw [e0, e2, e4]
  exact congrArg _ (funext fun j => V1_v14 m ρ c j)

theorem V3_v15_0 : (V3 m ρ c main_v15_0 : S100000x128.Idx → EReal) = pre1 m c := by
  show W3 m ρ c (Proc.devRef .tc main_v15_0) = _
  refine (StableHlo.after_of_writes_sub hostOps1 _ hostOps1_writes (by decide) : W3 m ρ c (Proc.devRef .tc main_v15_0) = W2 m ρ c (Proc.devRef .tc main_v15_0)).trans ?_
  exact ((W2_arr m ρ c 5).trans (arr0_5 (V1 m ρ) c)).trans (hpre0_eq m ρ c)

theorem V3_v15_1 (j : Fin 128) : (V3 m ρ c main_v15_1 : S1x128.Idx → EReal) (ix2 0 j) = colSum (pre1 m c) j := by
  show W3 m ρ c (Proc.devRef .tc main_v15_1) (ix2 0 j) = _
  have e1 := (StableHlo.after_of_writes_sub hostOps1 _ hostOps1_writes (by decide) : W3 m ρ c (Proc.devRef .tc main_v15_1) = W2 m ρ c (Proc.devRef .tc main_v15_1))
  have e2 : W2 m ρ c (Proc.devRef .tc main_v15_1) = (dat0 (V1 m ρ) c).arrAt 6 cfg0.N := W2_arr m ρ c 6
  exact (congrFun (e1.trans e2) (ix2 0 j)).trans ((arr0_6 (V1 m ρ) c j).trans (congrArg (fun p => colSum p j) (hpre0_eq m ρ c)))

theorem V3_v15_2 (j : Fin 128) : (V3 m ρ c main_v15_2 : S1x128.Idx → EReal) (ix2 0 j) = colSumSq (pre1 m c) j := by
  show W3 m ρ c (Proc.devRef .tc main_v15_2) (ix2 0 j) = _
  have e1 := (StableHlo.after_of_writes_sub hostOps1 _ hostOps1_writes (by decide) : W3 m ρ c (Proc.devRef .tc main_v15_2) = W2 m ρ c (Proc.devRef .tc main_v15_2))
  have e2 : W2 m ρ c (Proc.devRef .tc main_v15_2) = (dat0 (V1 m ρ) c).arrAt 7 cfg0.N := W2_arr m ρ c 7
  exact (congrFun (e1.trans e2) (ix2 0 j)).trans ((arr0_7 (V1 m ρ) c j).trans (congrArg (fun p => colSumSq p j) (hpre0_eq m ρ c)))

theorem V3_v16 (j : Fin 128) : (V3 m ρ c main_v16 : S1x128.Idx → EReal) (ix2 0 j) = argG1 m c (ix1 j) := by
  show W3 m ρ c (Proc.devRef .tc main_v16) (ix2 0 j) = _
  exact (host1_v16 (W2 m ρ c) j).trans (congrFun ((keep m ρ c main_arg5 (by decide)).2.1) (ix1 j))

theorem V3_v17 (j : Fin 128) : (V3 m ρ c main_v17 : S1x128.Idx → EReal) (ix2 0 j) = argBe1 m c (ix1 j) := by
  show W3 m ρ c (Proc.devRef .tc main_v17) (ix2 0 j) = _
  exact (host1_v17 (W2 m ρ c) j).trans (congrFun ((keep m ρ c main_arg6 (by decide)).2.1) (ix1 j))

theorem W4_v18 : (W4 m ρ c (Proc.devRef .tc main_v18) : S100000x128.Idx → EReal)
    = bnSums (pre1 m c) (colSum (pre1 m c)) (colSumSq (pre1 m c)) (fun j => argG1 m c (ix1 j)) (fun j => argBe1 m c (ix1 j)) :=
  ((W4_arr m ρ c 5).trans (arr1_5 (V3 m ρ) c)).trans
    (bnSums_congr (V3_v15_0 m ρ c) (funext fun j => V3_v15_1 m ρ c j) (funext fun j => V3_v15_2 m ρ c j)
      (funext fun j => V3_v16 m ρ c j) (funext fun j => V3_v17 m ρ c j))

structure RealArgs : Prop where
  x : ∀ i, IsReal (argX m c i)
  wr1 : ∀ i, IsReal (argWr1 m c i)
  b1 : ∀ i, IsReal (argB1 m c i)
  wo1 : ∀ i, IsReal (argWo1 m c i)
  g1 : ∀ i, IsReal (argG1 m c i)
  be1 : ∀ i, IsReal (argBe1 m c i)
  wr2 : ∀ i, IsReal (argWr2 m c i)
  b2 : ∀ i, IsReal (argB2 m c i)
  wo2 : ∀ i, IsReal (argWo2 m c i)
  g2 : ∀ i, IsReal (argG2 m c i)
  be2 : ∀ i, IsReal (argBe2 m c i)

variable {m c}

theorem isReal_pre1 (h : RealArgs m c) (i) : IsReal (pre1 m c i) :=
  isReal_dense (isReal_seg' _ _ _ h.x) h.x h.wr1 h.wo1 (fun j => h.b1 _) i

theorem isReal_hid1 (h : RealArgs m c) (i) : IsReal (hid1 m c i) :=
  isReal_bnDev (isReal_pre1 h) (fun j => h.g1 _) (fun j => h.be1 _) i

theorem isReal_pre2 (h : RealArgs m c) (i) : IsReal (pre2 m c i) :=
  isReal_dense (isReal_seg' _ _ _ (isReal_hid1 h)) (isReal_hid1 h) h.wr2 h.wo2 (fun j => h.b2 _) i

variable (m c)

theorem W4_v18_hid1 (h : RealArgs m c) : (W4 m ρ c (Proc.devRef .tc main_v18) : S100000x128.Idx → EReal) = hid1 m c :=
  (W4_v18 m ρ c).trans (bnSums_eq_bnDev rfl (pre1 m c) (isReal_pre1 h) _ _)

theorem W4_v1 : (W4 m ρ c (Proc.devRef .tc main_v1) : IVec S1600000 32) = srcOf (argE m c) :=
  (W4_of_ne m ρ c main_v1 (by decide)).trans ((StableHlo.after_of_writes_sub hostOps1 _ hostOps1_writes (by decide) : W3 m ρ c (Proc.devRef .tc main_v1) = W2 m ρ c (Proc.devRef .tc main_v1)).trans
    ((W2_of_ne m ρ c main_v1 (by decide)).trans ((host0_v1 (W0 m ρ c)).trans rfl)))

theorem W4_v3 : (W4 m ρ c (Proc.devRef .tc main_v3) : IVec S1600000 32) = dstOf (argE m c) :=
  (W4_of_ne m ρ c main_v3 (by decide)).trans ((StableHlo.after_of_writes_sub hostOps1 _ hostOps1_writes (by decide) : W3 m ρ c (Proc.devRef .tc main_v3) = W2 m ρ c (Proc.devRef .tc main_v3)).trans
    ((W2_of_ne m ρ c main_v3 (by decide)).trans ((host0_v3 (W0 m ρ c)).trans rfl)))

theorem V5_v28 (h : RealArgs m c) : (V5 m ρ c main_v28 : S100000x128.Idx → EReal) = seg (hid1 m c) (argE m c) := by
  show W5 m ρ c (Proc.devRef .tc main_v28) = _
  refine (host2_v28 (W4 m ρ c)).trans ?_
  exact (congr (congr (congrArg seg' (W4_v18_hid1 m ρ c h)) (W4_v1 m ρ c)) (W4_v3 m ρ c)).trans rfl

theorem V5_v18 (h : RealArgs m c) : (V5 m ρ c main_v18 : S100000x128.Idx → EReal) = hid1 m c := by
  show W5 m ρ c (Proc.devRef .tc main_v18) = _
  exact (StableHlo.after_of_writes_sub hostOps2 _ hostOps2_writes (by decide) : W5 m ρ c (Proc.devRef .tc main_v18) = W4 m ρ c (Proc.devRef .tc main_v18)).trans (W4_v18_hid1 m ρ c h)

theorem V5_v29 (j : Fin 32) : (V5 m ρ c main_v29 : S1x32.Idx → EReal) (ix2 0 j) = argB2 m c (ix1 j) := by
  show W5 m ρ c (Proc.devRef .tc main_v29) (ix2 0 j) = _
  exact (host2_v29 (W4 m ρ c) j).trans (congrFun ((keep m ρ c main_arg8 (by decide)).2.2.2.1) (ix1 j))

theorem hpre2_eq (h : RealArgs m c) : hpre2 (V5 m ρ) c = pre2 m c := by
  unfold hpre2 pre2
  rw [V5_v28 m ρ c h, V5_v18 m ρ c h]
  have e7 : (V5 m ρ c main_arg7 : S128x32.Idx → EReal) = argWr2 m c := (keep m ρ c main_arg7 (by decide)).2.2.2.2.1
  have e9 : (V5 m ρ c main_arg9 : S128x32.Idx → EReal) = argWo2 m c := (keep m ρ c main_arg9 (by decide)).2.2.2.2.1
  rw [e7, e9]
  exact congrArg _ (funext fun j => V5_v29 m ρ c j)

theorem V7_v30_0 (h : RealArgs m c) : (V7 m ρ c main_v30_0 : S100000x32.Idx → EReal) = pre2 m c := by
  show W7 m ρ c (Proc.devRef .tc main_v30_0) = _
  refine (StableHlo.after_of_writes_sub hostOps3 _ hostOps3_writes (by decide) : W7 m ρ c (Proc.devRef .tc main_v30_0) = W6 m ρ c (Proc.devRef .tc main_v30_0)).trans ?_
  exact ((W6_arr m ρ c 5).trans (arr2_5 (V5 m ρ) c)).trans (hpre2_eq m ρ c h)

theorem V7_v30_1 (h : RealArgs m c) (j : Fin 32) : (V7 m ρ c main_v30_1 : S1x32.Idx → EReal) (ix2 0 j) = colSum (pre2 m c) j := by
  show W7 m ρ c (Proc.devRef .tc main_v30_1) (ix2 0 j) = _
  have e1 := (StableHlo.after_of_writes_sub hostOps3 _ hostOps3_writes (by decide) : W7 m ρ c (Proc.devRef .tc main_v30_1) = W6 m ρ c (Proc.devRef .tc main_v30_1))
  have e2 : W6 m ρ c (Proc.devRef .tc main_v30_1) = (dat2 (V5 m ρ) c).arrAt 6 cfg2.N := W6_arr m ρ c 6
  exact (congrFun (e1.trans e2) (ix2 0 j)).trans ((arr2_6 (V5 m ρ) c j).trans (congrArg (fun p => colSum p j) (hpre2_eq m ρ c h)))

theorem V7_v30_2 (h : RealArgs m c) (j : Fin 32) : (V7 m ρ c main_v30_2 : S1x32.Idx → EReal) (ix2 0 j) = colSumSq (pre2 m c) j := by
  show W7 m ρ c (Proc.devRef .tc main_v30_2) (ix2 0 j) = _
  have e1 := (StableHlo.after_of_writes_sub hostOps3 _ hostOps3_writes (by decide) : W7 m ρ c (Proc.devRef .tc main_v30_2) = W6 m ρ c (Proc.devRef .tc main_v30_2))
  have e2 : W6 m ρ c (Proc.devRef .tc main_v30_2) = (dat2 (V5 m ρ) c).arrAt 7 cfg2.N := W6_arr m ρ c 7
  exact (congrFun (e1.trans e2) (ix2 0 j)).trans ((arr2_7 (V5 m ρ) c j).trans (congrArg (fun p => colSumSq p j) (hpre2_eq m ρ c h)))

theorem V7_v31 (j : Fin 32) : (V7 m ρ c main_v31 : S1x32.Idx → EReal) (ix2 0 j) = argG2 m c (ix1 j) := by
  show W7 m ρ c (Proc.devRef .tc main_v31) (ix2 0 j) = _
  exact (host3_v31 (W6 m ρ c) j).trans (congrFun ((keep m ρ c main_arg10 (by decide)).2.2.2.2.2.1) (ix1 j))

theorem V7_v32 (j : Fin 32) : (V7 m ρ c main_v32 : S1x32.Idx → EReal) (ix2 0 j) = argBe2 m c (ix1 j) := by
  show W7 m ρ c (Proc.devRef .tc main_v32) (ix2 0 j) = _
  exact (host3_v32 (W6 m ρ c) j).trans (congrFun ((keep m ρ c main_arg11 (by decide)).2.2.2.2.2.1) (ix1 j))

theorem result_eq (h : RealArgs m c) : (W8 m ρ c (Proc.devRef .tc main_v33) : S100000x32.Idx → EReal) = hid2 m c :=
  (((W8_arr m ρ c 5).trans (arr3_5 (V7 m ρ) c)).trans
    (bnSums_congr (V7_v30_0 m ρ c h) (funext fun j => V7_v30_1 m ρ c h j) (funext fun j => V7_v30_2 m ρ c h j)
      (funext fun j => V7_v31 m ρ c j) (funext fun j => V7_v32 m ρ c j))).trans
    (bnSums_eq_bnDev rfl (pre2 m c) (isReal_pre2 h) _ _)

end Cert.KernelIdeal.Hand

end
-- ==== Proof.Spec.Finite.lean ====
import proofs.«154965_j36919538876772_1_alg».proof.Pre_finite_inputs
import proofs.«154965_j36919538876772_1_alg».proof.Proof.Spec.Layer
import Idealize.ShloMosaic.Lib.ReduceAll
import Idealize.ShloMosaic.Lib.ValueIdx

noncomputable section

namespace Cert.Spec

open Idealize.ShloMosaic Idealize.ShloMosaic.ValueIdx
open Cert.Pre_finite_inputs

instance : Subsingleton S_.Idx := ⟨fun a b => funext fun d => d.elim0⟩

theorem isReal_of_abs_lt_inf (x : Ideal .f32)
    (h : FloatOps.cmpf .olt (FloatOps.hostAbsf x) (FloatOps.ofBits (F := Ideal) .f32 0x7F800000#32) = 1#1) : IsReal x := by
  have hinf : Ideal.ofBits .f32 0x7F800000#32 = (⊤ : EReal) := by simp [Ideal.ofBits, Ideal.ieee]
  have h' : Ideal.cmp .olt (max x (-x)) (Ideal.ofBits .f32 0x7F800000#32) = 1#1 := h
  rw [hinf] at h'
  induction x using EReal.rec with
  | bot => simp [Ideal.cmp] at h'
  | coe r => exact ⟨r, rfl⟩
  | top => simp [Ideal.cmp] at h'

theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : IsReal (x i) :=
  isReal_of_abs_lt_inf (x i) (Host.reduce_andi_all _ _ hr hu ix0 e i)

variable [Facts]

theorem real_of_finite_inputs (x0 : FVec Ideal S100000x128 .f32) (x1 : IVec S2x1600000 32)
    (x2 : FVec Ideal S128x128 .f32) (x3 : FVec Ideal S128 .f32) (x4 : FVec Ideal S128x128 .f32)
    (x5 : FVec Ideal S128 .f32) (x6 : FVec Ideal S128 .f32) (x7 : FVec Ideal S128x32 .f32)
    (x8 : FVec Ideal S32 .f32) (x9 : FVec Ideal S128x32 .f32) (x10 : FVec Ideal S32 .f32) (x11 : FVec Ideal S32 .f32)
    (h : Cert.Pre_finite_inputs.fn (F := Ideal) x0 x1 x2 x3 x4 x5 x6 x7 x8 x9 x10 x11 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) := by

  have h0 := congrFun h ix0
  dsimp only [fn, fn_part1, fn_part2, fn_part3, andi] at h0

  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨all_real x0 _ _ _ e0, all_real x2 _ _ _ e2, all_real x3 _ _ _ e3, all_real x4 _ _ _ e4,
    all_real x5 _ _ _ e5, all_real x6 _ _ _ e6, all_real x7 _ _ _ e7, all_real x8 _ _ _ e8,
    all_real x9 _ _ _ e9, all_real x10 _ _ _ e10, all_real x11 _ _ _ e11⟩

end Cert.Spec

end
-- ==== Proof.RefValue.lean ====
import proofs.«154965_j36919538876772_1_alg».proof.Proof.RefRunP
import proofs.«154965_j36919538876772_1_alg».proof.Proof.RefReadP
import proofs.«154965_j36919538876772_1_alg».proof.Proof.Spec.Layer
import Idealize.ShloMosaic.Lib.ValueIdx
import Idealize.ShloMosaic.PureOps.Ideal.Laws

noncomputable section

namespace Cert.ReferenceIdeal.RefValue

open Cert.ReferenceIdeal Cert.ReferenceIdeal.ReadP Cert.Spec Idealize.ShloMosaic Idealize.ShloMosaic.ValueIdx
open scoped BigOperators

local macro "idx_ext" : tactic =>
  `(tactic| (funext a; first
    | (match a with | ⟨0, _⟩ => rfl | ⟨1, _⟩ => rfl)
    | (match a with | ⟨0, _⟩ => rfl)))

def seg (x : (⟨S100000x128, .f32⟩ : BufTy).Contents (Elt Ideal)) (e : (⟨S2x1600000, .i32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v11 (F := Ideal)) (val_main_v12 (F := Ideal) e)
    (Host.gather gather_S100000x128_S1600000x1_S1600000x128_1_0_n_n_0_1_1128 x (val_main_v9 (F := Ideal) e))

theorem seg_first (x0 : (⟨S100000x128, .f32⟩ : BufTy).Contents (Elt Ideal)) (x1 : (⟨S2x1600000, .i32⟩ : BufTy).Contents (Elt Ideal)) :
    val_main_v13 (F := Ideal) x0 x1 = seg x0 x1 := rfl

theorem zeros_second : val_main_v53 (F := Ideal) = val_main_v11 (F := Ideal) := rfl

theorem dst_second (x1 : (⟨S2x1600000, .i32⟩ : BufTy).Contents (Elt Ideal)) : val_main_v54 (F := Ideal) x1 = val_main_v12 (F := Ideal) x1 := rfl

theorem src_second (x1 : (⟨S2x1600000, .i32⟩ : BufTy).Contents (Elt Ideal)) : val_main_v51 (F := Ideal) x1 = val_main_v9 (F := Ideal) x1 := rfl

theorem dense1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v19 (F := Ideal) x0 x1 x2 x3 x4
      = dense (N := 100000) (K := 128) (D := 128) (seg x0 x1) x0 x2 x4 (fun j => x3 (ix1 j)) := by
  funext i
  have hL : ∀ k, lidx_main_v14 i k = ix2 (i 0) k := fun k => by idx_ext
  have hR : ∀ k, ridx_main_v14 i k = ix2 k (i 1) := fun k => by idx_ext
  have hL' : ∀ k, lidx_main_v18 i k = ix2 (i 0) k := fun k => by idx_ext
  have hR' : ∀ k, ridx_main_v18 i k = ix2 k (i 1) := fun k => by idx_ext
  have hB : idx_main_v15 (idx_main_v16 i) = ix1 (i 1) := by idx_ext
  rw [val_main_v19_apply, val_main_v17_apply, val_main_v14_apply, val_main_v16_apply, val_main_v15_apply,
    val_main_v18_apply, seg_first, hB]
  simp only [hL, hR, hL', hR', Ideal.addf_def]
  rfl

theorem mean1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j : S128.Idx) :
    val_main_v22 (F := Ideal) x0 x1 x2 x3 x4 j = Ideal.div (colSum ((val_main_v19 (F := Ideal) x0 x1 x2 x3 x4) : Mat 100000 128) (j 0)) nRows := by
  have h : ∀ k, idx_main_v20 j k = ix2 k (j 0) := fun k => by idx_ext
  rw [val_main_v22_apply, val_main_v20_apply, val_main_v21_apply, val_main_cst_2_apply, val_main_cst_1_apply]
  simp only [h, Ideal.hostDivf_def, Ideal.ofBits_def, Ideal.ofBits_zero_f32, zero_add]
  generalize val_main_v19 (F := Ideal) x0 x1 x2 x3 x4 = P
  rfl

theorem devA1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : S100000x128.Idx) :
    val_main_v25 (F := Ideal) x0 x1 x2 x3 x4 i = (val_main_v19 (F := Ideal) x0 x1 x2 x3 x4) i - Ideal.div (colSum ((val_main_v19 (F := Ideal) x0 x1 x2 x3 x4) : Mat 100000 128) (i 1)) nRows := by
  rw [val_main_v25_apply, val_main_v24_apply, val_main_v23_apply, mean1]
  generalize val_main_v19 (F := Ideal) x0 x1 x2 x3 x4 = P
  rfl

theorem devB1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : S100000x128.Idx) :
    val_main_v32 (F := Ideal) x0 x1 x2 x3 x4 i = (val_main_v19 (F := Ideal) x0 x1 x2 x3 x4) i - Ideal.div (colSum ((val_main_v19 (F := Ideal) x0 x1 x2 x3 x4) : Mat 100000 128) (i 1)) nRows := by
  rw [val_main_v32_apply, val_main_v31_apply, val_main_v30_apply, mean1]
  generalize val_main_v19 (F := Ideal) x0 x1 x2 x3 x4 = P
  rfl

theorem var1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j : S128.Idx) :
    val_main_v29 (F := Ideal) x0 x1 x2 x3 x4 j
      = Ideal.div (∑ r : Fin 100000, ((val_main_v19 (F := Ideal) x0 x1 x2 x3 x4) (ix2 r (j 0)) - Ideal.div (colSum ((val_main_v19 (F := Ideal) x0 x1 x2 x3 x4) : Mat 100000 128) (j 0)) nRows)
                                    * ((val_main_v19 (F := Ideal) x0 x1 x2 x3 x4) (ix2 r (j 0)) - Ideal.div (colSum ((val_main_v19 (F := Ideal) x0 x1 x2 x3 x4) : Mat 100000 128) (j 0)) nRows)) nRows := by
  have h : ∀ k, idx_main_v27 j k = ix2 k (j 0) := fun k => by idx_ext
  rw [val_main_v29_apply, val_main_v27_apply, val_main_v28_apply, val_main_cst_4_apply, val_main_cst_3_apply]
  have hs : ∀ k : Fin 100000, val_main_v26 (F := Ideal) x0 x1 x2 x3 x4 (idx_main_v27 j k)
      = ((val_main_v19 (F := Ideal) x0 x1 x2 x3 x4) (ix2 k (j 0)) - Ideal.div (colSum ((val_main_v19 (F := Ideal) x0 x1 x2 x3 x4) : Mat 100000 128) (j 0)) nRows)
        * ((val_main_v19 (F := Ideal) x0 x1 x2 x3 x4) (ix2 k (j 0)) - Ideal.div (colSum ((val_main_v19 (F := Ideal) x0 x1 x2 x3 x4) : Mat 100000 128) (j 0)) nRows) := fun k => by
    rw [val_main_v26_apply, devA1, h]
    rfl
  simp only [hs, Ideal.hostDivf_def, Ideal.ofBits_def, Ideal.ofBits_zero_f32, zero_add]
  generalize val_main_v19 (F := Ideal) x0 x1 x2 x3 x4 = P
  rfl

theorem bn1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) :
    val_main_v45 (F := Ideal) x0 x1 x2 x3 x4 x5 x6 = bnDev ((val_main_v19 (F := Ideal) x0 x1 x2 x3 x4) : Mat 100000 128) (fun j => x5 (ix1 j)) (fun j => x6 (ix1 j)) := by
  funext i
  have hg : idx_main_v39 (idx_main_v40 i) = ix1 (i 1) := by idx_ext
  have hb : idx_main_v42 (idx_main_v43 i) = ix1 (i 1) := by idx_ext
  rw [val_main_v45_apply, val_main_v44_apply, val_main_v41_apply, val_main_v38_apply, devB1, val_main_v37_apply, val_main_v36_apply, val_main_v35_apply,
    val_main_v34_apply, var1, val_main_v33_apply, val_main_cst_5_apply, val_main_v40_apply, val_main_v39_apply, val_main_v43_apply, val_main_v42_apply,
    val_main_call0_v0_apply, val_main_call0_cst_apply, hg, hb]
  simp only [Ideal.maximumf_def, Ideal.addf_def, Ideal.mulf_def, Ideal.hostUnary_rsqrt_def, Ideal.ofBits_def]
  generalize val_main_v19 (F := Ideal) x0 x1 x2 x3 x4 = P
  rfl

def layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) : Mat 100000 128 :=
  bnDev (dense (N := 100000) (K := 128) (D := 128) (seg x0 x1) x0 x2 x4 (fun j => x3 (ix1 j))) (fun j => x5 (ix1 j)) (fun j => x6 (ix1 j))

theorem layer1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) :
    val_main_v45 (F := Ideal) x0 x1 x2 x3 x4 x5 x6 = layer1 x0 x1 x2 x3 x4 x5 x6 := by
  rw [bn1, dense1]
  rfl

theorem seg_second (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) :
    val_main_v55 (F := Ideal) x0 x1 x2 x3 x4 x5 x6 = seg (val_main_v45 (F := Ideal) x0 x1 x2 x3 x4 x5 x6) x1 := by
  have h1 := zeros_second
  have h2 := dst_second x1
  have h3 := src_second x1
  unfold val_main_v55 val_main_v52 seg
  rw [h1, h2, h3]

theorem dense2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) :
    val_main_v61 (F := Ideal) x0 x1 x2 x3 x4 x5 x6 x7 x8 x9
      = dense (N := 100000) (K := 128) (D := 32) (seg (val_main_v45 (F := Ideal) x0 x1 x2 x3 x4 x5 x6) x1)
          (val_main_v45 (F := Ideal) x0 x1 x2 x3 x4 x5 x6) x7 x9 (fun j => x8 (ix1 j)) := by
  funext i
  have hL : ∀ k, lidx_main_v56 i k = ix2 (i 0) k := fun k => by idx_ext
  have hR : ∀ k, ridx_main_v56 i k = ix2 k (i 1) := fun k => by idx_ext
  have hL' : ∀ k, lidx_main_v60 i k = ix2 (i 0) k := fun k => by idx_ext
  have hR' : ∀ k, ridx_main_v60 i k = ix2 k (i 1) := fun k => by idx_ext
  have hB : idx_main_v57 (idx_main_v58 i) = ix1 (i 1) := by idx_ext
  rw [val_main_v61_apply, val_main_v59_apply, val_main_v56_apply, val_main_v58_apply, val_main_v57_apply,
    val_main_v60_apply, seg_second, hB]
  generalize val_main_v45 (F := Ideal) x0 x1 x2 x3 x4 x5 x6 = h
  simp only [hL, hR, hL', hR', Ideal.addf_def]
  rfl

theorem mean2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) (j : S32.Idx) :
    val_main_v64 (F := Ideal) x0 x1 x2 x3 x4 x5 x6 x7 x8 x9 j = Ideal.div (colSum ((val_main_v61 (F := Ideal) x0 x1 x2 x3 x4 x5 x6 x7 x8 x9) : Mat 100000 32) (j 0)) nRows := by
  have h : ∀ k, idx_main_v62 j k = ix2 k (j 0) := fun k => by idx_ext
  rw [val_main_v64_apply, val_main_v62_apply, val_main_v63_apply, val_main_cst_10_apply, val_main_cst_9_apply]
  simp only [h, Ideal.hostDivf_def, Ideal.ofBits_def, Ideal.ofBits_zero_f32, zero_add]
  generalize val_main_v61 (F := Ideal) x0 x1 x2 x3 x4 x5 x6 x7 x8 x9 = P
  rfl

theorem devA2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) (i : S100000x32.Idx) :
    val_main_v67 (F := Ideal) x0 x1 x2 x3 x4 x5 x6 x7 x8 x9 i = (val_main_v61 (F := Ideal) x0 x1 x2 x3 x4 x5 x6 x7 x8 x9) i - Ideal.div (colSum ((val_main_v61 (F := Ideal) x0 x1 x2 x3 x4 x5 x6 x7 x8 x9) : Mat 100000 32) (i 1)) nRows := by
  rw [val_main_v67_apply, val_main_v66_apply, val_main_v65_apply, mean2]
  generalize val_main_v61 (F := Ideal) x0 x1 x2 x3 x4 x5 x6 x7 x8 x9 = P
  rfl

theorem devB2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) (i : S100000x32.Idx) :
    val_main_v74 (F := Ideal) x0 x1 x2 x3 x4 x5 x6 x7 x8 x9 i = (val_main_v61 (F := Ideal) x0 x1 x2 x3 x4 x5 x6 x7 x8 x9) i - Ideal.div (colSum ((val_main_v61 (F := Ideal) x0 x1 x2 x3 x4 x5 x6 x7 x8 x9) : Mat 100000 32) (i 1)) nRows := by
  rw [val_main_v74_apply, val_main_v73_apply, val_main_v72_apply, mean2]
  generalize val_main_v61 (F := Ideal) x0 x1 x2 x3 x4 x5 x6 x7 x8 x9 = P
  rfl

theorem var2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) (j : S32.Idx) :
    val_main_v71 (F := Ideal) x0 x1 x2 x3 x4 x5 x6 x7 x8 x9 j
      = Ideal.div (∑ r : Fin 100000, ((val_main_v61 (F := Ideal) x0 x1 x2 x3 x4 x5 x6 x7 x8 x9) (ix2 r (j 0)) - Ideal.div (colSum ((val_main_v61 (F := Ideal) x0 x1 x2 x3 x4 x5 x6 x7 x8 x9) : Mat 100000 32) (j 0)) nRows)
                                    * ((val_main_v61 (F := Ideal) x0 x1 x2 x3 x4 x5 x6 x7 x8 x9) (ix2 r (j 0)) - Ideal.div (colSum ((val_main_v61 (F := Ideal) x0 x1 x2 x3 x4 x5 x6 x7 x8 x9) : Mat 100000 32) (j 0)) nRows)) nRows := by
  have h : ∀ k, idx_main_v69 j k = ix2 k (j 0) := fun k => by idx_ext
  rw [val_main_v71_apply, val_main_v69_apply, val_main_v70_apply, val_main_cst_12_apply, val_main_cst_11_apply]
  have hs : ∀ k : Fin 100000, val_main_v68 (F := Ideal) x0 x1 x2 x3 x4 x5 x6 x7 x8 x9 (idx_main_v69 j k)
      = ((val_main_v61 (F := Ideal) x0 x1 x2 x3 x4 x5 x6 x7 x8 x9) (ix2 k (j 0)) - Ideal.div (colSum ((val_main_v61 (F := Ideal) x0 x1 x2 x3 x4 x5 x6 x7 x8 x9) : Mat 100000 32) (j 0)) nRows)
        * ((val_main_v61 (F := Ideal) x0 x1 x2 x3 x4 x5 x6 x7 x8 x9) (ix2 k (j 0)) - Ideal.div (colSum ((val_main_v61 (F := Ideal) x0 x1 x2 x3 x4 x5 x6 x7 x8 x9) : Mat 100000 32) (j 0)) nRows) := fun k => by
    rw [val_main_v68_apply, devA2, h]
    rfl
  simp only [hs, Ideal.hostDivf_def, Ideal.ofBits_def, Ideal.ofBits_zero_f32, zero_add]
  generalize val_main_v61 (F := Ideal) x0 x1 x2 x3 x4 x5 x6 x7 x8 x9 = P
  rfl

theorem bn2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) (x10 x11 : (⟨S32, .f32⟩ : BufTy).Contents (Elt Ideal)) :
    val_main_v87 (F := Ideal) x0 x1 x2 x3 x4 x5 x6 x7 x8 x9 x10 x11 = bnDev ((val_main_v61 (F := Ideal) x0 x1 x2 x3 x4 x5 x6 x7 x8 x9) : Mat 100000 32) (fun j => x10 (ix1 j)) (fun j => x11 (ix1 j)) := by
  funext i
  have hg : idx_main_v81 (idx_main_v82 i) = ix1 (i 1) := by idx_ext
  have hb : idx_main_v84 (idx_main_v85 i) = ix1 (i 1) := by idx_ext
  rw [val_main_v87_apply, val_main_v86_apply, val_main_v83_apply, val_main_v80_apply, devB2, val_main_v79_apply, val_main_v78_apply, val_main_v77_apply,
    val_main_v76_apply, var2, val_main_v75_apply, val_main_cst_13_apply, val_main_v82_apply, val_main_v81_apply, val_main_v85_apply, val_main_v84_apply,
    val_main_call1_v0_apply, val_main_call1_cst_apply, hg, hb]
  simp only [Ideal.maximumf_def, Ideal.addf_def, Ideal.mulf_def, Ideal.hostUnary_rsqrt_def, Ideal.ofBits_def]
  generalize val_main_v61 (F := Ideal) x0 x1 x2 x3 x4 x5 x6 x7 x8 x9 = P
  rfl

theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (x7 : (⟨S128x32, .f32⟩ : BufTy).Contents (Elt Ideal)) (x8 : (⟨S32, .f32⟩ : BufTy).Contents (Elt Ideal)) (x9 : (⟨S128x32, .f32⟩ : BufTy).Contents (Elt Ideal)) (x10 x11 : (⟨S32, .f32⟩ : BufTy).Contents (Elt Ideal)) :
    val_main_v87 (F := Ideal) x0 x1 x2 x3 x4 x5 x6 x7 x8 x9 x10 x11
      = bnDev (dense (N := 100000) (K := 128) (D := 32) (seg (layer1 x0 x1 x2 x3 x4 x5 x6) x1) (layer1 x0 x1 x2 x3 x4 x5 x6) x7 x9 (fun j => x8 (ix1 j)))
          (fun j => x10 (ix1 j)) (fun j => x11 (ix1 j)) := by
  rw [bn2, dense2, layer1_eq]

end Cert.ReferenceIdeal.RefValue

end
-- ==== Proof.Algebraic.lean ====
import proofs.«154965_j36919538876772_1_alg».proof.Defs
import proofs.«154965_j36919538876772_1_alg».proof.Proof.KI.Run
import proofs.«154965_j36919538876772_1_alg».proof.Proof.KI.Final
import proofs.«154965_j36919538876772_1_alg».proof.Proof.KI.HostVal
import proofs.«154965_j36919538876772_1_alg».proof.Proof.Spec.Finite
import proofs.«154965_j36919538876772_1_alg».proof.Proof.Spec.Layer
import proofs.«154965_j36919538876772_1_alg».proof.Proof.RefRunP
import proofs.«154965_j36919538876772_1_alg».proof.Proof.RefReadP
import proofs.«154965_j36919538876772_1_alg».proof.Proof.RefValue

noncomputable section

open Idealize.ShloMosaic Idealize.ShloMosaic.TcCoe Idealize.SL.Sem

namespace Cert.Proof.Parts

theorem seg_eq (x : Cert.KernelIdeal.S100000x128.Idx → EReal) (e : IVec Cert.KernelIdeal.S2x1600000 32) :
    Cert.ReferenceIdeal.RefValue.seg x e = Cert.KernelIdeal.Hand.seg x e := by
  unfold Cert.ReferenceIdeal.RefValue.seg Cert.KernelIdeal.Hand.seg Cert.KernelIdeal.Hand.seg' Cert.KernelIdeal.Hand.srcOf Cert.KernelIdeal.Hand.dstOf
  unfold Cert.ReferenceIdeal.ReadP.val_main_v11 Cert.ReferenceIdeal.ReadP.val_main_v12 Cert.ReferenceIdeal.ReadP.val_main_v9 Cert.ReferenceIdeal.ReadP.val_main_v8
    Cert.ReferenceIdeal.ReadP.val_main_v7 Cert.ReferenceIdeal.ReadP.val_main_v6 Cert.ReferenceIdeal.ReadP.val_main_v5 Cert.ReferenceIdeal.ReadP.val_main_v4
    Cert.ReferenceIdeal.ReadP.val_main_v3 Cert.ReferenceIdeal.ReadP.val_main_v2 Cert.ReferenceIdeal.ReadP.val_main_v1 Cert.ReferenceIdeal.ReadP.val_main_v0
    Cert.ReferenceIdeal.ReadP.val_main_cst Cert.ReferenceIdeal.ReadP.val_main_c Cert.ReferenceIdeal.ReadP.val_main_c_0
  rfl

theorem realArgs [Cert.KernelIdeal.Facts] [Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Hand.RealArgs m c := by
  obtain ⟨h0, h2, h3, h4, h5, h6, h7, h8, h9, h10, h11⟩ := Cert.Spec.real_of_finite_inputs _ _ _ _ _ _ _ _ _ _ _ _ (hpre c)
  exact ⟨h0, h2, h3, h4, h5, h6, h7, h8, h9, h10, h11⟩

theorem ref_result_eq (m : (ℓ : Loc Cert.KernelIdeal.nD Cert.KernelIdeal.τ Cert.KernelIdeal.sig) → Buf (Elt Ideal) ℓ) (c : Dev Cert.KernelIdeal.nD) :
    Cert.ReferenceIdeal.ReadP.val_main_v87 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Hand.hid2 m c := by
  rw [Cert.ReferenceIdeal.RefValue.result_eq]
  unfold Cert.KernelIdeal.Hand.hid2 Cert.KernelIdeal.Hand.pre2 Cert.KernelIdeal.Hand.hid1 Cert.KernelIdeal.Hand.pre1 Cert.ReferenceIdeal.RefValue.layer1
  simp only [seg_eq]

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.hid2 m c, ?_, ?_⟩
  · refine (θ_run Cert.KernelIdeal.defs _ _).mono (fun _ h c => ⟨(h c).1.trans ?_, (h c).2⟩)
      (Cert.KernelIdeal.Hand.run_result (F := Ideal) m ρ)
    exact Cert.KernelIdeal.Hand.result_eq m ρ c (realArgs m hpre c)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9, a10, a11⟩ := hagree c
    rw [Cert.ReferenceIdeal.ReadP.val_main_v87_eq, a0, a1, a2, a3, a4, a5, a6, a7, a8, a9, a10, a11]
    exact ref_result_eq m c

end Cert.Proof.Parts

end
-- ==== Proof.lean ====
import proofs.«154965_j36919538876772_1_alg».proof.Defs
import proofs.«154965_j36919538876772_1_alg».proof.Proof.Gen.Kernel
import proofs.«154965_j36919538876772_1_alg».proof.Proof.Gen.KernelIdeal
import proofs.«154965_j36919538876772_1_alg».proof.Proof.Gen.ReferenceIdeal
import proofs.«154965_j36919538876772_1_alg».proof.Proof.Gen.Pre_finite_inputs
import proofs.«154965_j36919538876772_1_alg».proof.Proof.KI.Run
import proofs.«154965_j36919538876772_1_alg».proof.Proof.RefRunP
import proofs.«154965_j36919538876772_1_alg».proof.Proof.Algebraic

noncomputable section

namespace Cert.Proof

open Idealize.ShloMosaic Idealize.SL.Sem

variable {F : FTy → Type} [FloatOps F]

set_option maxHeartbeats 4000000 in
-- No operation is rewritten for the extended reals: label by label the two programs have one and the same body.
theorem bodies_eq : Cert.Kernel.defs₀ (F := F) = Cert.KernelIdeal.defs₀ (F := F) := by
  unfold Cert.Kernel.defs₀ Cert.KernelIdeal.defs₀
  congr 1
  funext x a
  match x, a with
  | 0, (t, s) => rfl
  | 1, (t, s) => rfl
  | 2, (t, s) => rfl
  | 3, (t, s) => rfl

set_option maxHeartbeats 4000000 in
theorem defs_eq : Cert.Kernel.defs (F := F) = Cert.KernelIdeal.defs (F := F) :=
  congrArg (Pipeline.defs Cert.KernelIdeal.pcfgs) bodies_eq

set_option maxHeartbeats 4000000 in
-- So the frame proved once for every float instance serves both programs.
theorem frame_word : Cert.frame_Kernel := fun m ρ _ => by
  have h := Cert.KernelIdeal.Hand.frame (F := Bits) m ρ
  rw [← defs_eq] at h
  exact h

theorem claim : Cert.Claim :=
  ⟨Cert.Kernel.Gen.facts, Cert.KernelIdeal.Gen.facts, Cert.ReferenceIdeal.Gen.facts, Cert.Pre_finite_inputs.Gen.facts,
    frame_word,
    fun m ρ _ => Cert.KernelIdeal.Hand.frame (F := Ideal) m ρ,
    fun m ρ _ => (θ_run Cert.ReferenceIdeal.defs _ _).mono (fun _ h c => (h c).2) (Cert.ReferenceIdeal.ValueP.run (F := Ideal) m ρ),
    trivial,
    Cert.Proof.Parts.algebraic⟩

end Cert.Proof

end
